-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x8 : Shape := ⟨2, ![65536, 8]⟩
abbrev S65535x2 : Shape := ⟨2, ![65535, 2]⟩
abbrev S2000000x4 : Shape := ⟨2, ![2000000, 4]⟩
abbrev S_ : Shape := ⟨0, ![]⟩

class Facts : Prop where
  bcast_S_S65536x8 : S_.BroadcastsInDim S65536x8 (![] : Fin 0 → Fin S65536x8.rank)
  reducesTo_S65536x8_S_d0_1 : S65536x8.ReducesTo [0, 1] S_
  h_S_ : 0 < S_.numel
  bcast_S_S65535x2 : S_.BroadcastsInDim S65535x2 (![] : Fin 0 → Fin S65535x2.rank)
  reducesTo_S65535x2_S_d0_1 : S65535x2.ReducesTo [0, 1] S_
  bcast_S_S2000000x4 : S_.BroadcastsInDim S2000000x4 (![] : Fin 0 → Fin S2000000x4.rank)
  reducesTo_S2000000x4_S_d0_1 : S2000000x4.ReducesTo [0, 1] S_

variable [Facts]

def fn_part1 {F : FTy → Type} [FloatOps F] (main_v10 : IVec S_ 1) (main_v15 : IVec S2000000x4 1) (main_c_5 : IVec S_ 1) : IVec S_ 1 :=
  let main_v16 : IVec S_ 1 := (fun x v => Host.reduce IntOp.andi x v reducesTo_S2000000x4_S_d0_1 h_S_) main_v15 main_c_5
  let main_v17 : IVec S_ 1 := andi main_v10 main_v16
  main_v17

def fn {F : FTy → Type} [FloatOps F] (main_arg0 : FVec F S65536x8 .f32) (main_arg1 : IVec S65535x2 32) (main_arg2 : IVec S2000000x4 32) : IVec S_ 1 :=
  let main_v0 : FVec F S65536x8 .f32 := Host.absf main_arg0
  let main_cst : FVec F S_ .f32 := constant S_ .f32 0x7F800000#32
  let main_v1 : FVec F S65536x8 .f32 := broadcastInDim S65536x8 ![] bcast_S_S65536x8 main_cst
  let main_v2 : IVec S65536x8 1 := cmpf .olt main_v0 main_v1
  let main_c : IVec S_ 1 := constantI S_ 1 1#1
  let main_v3 : IVec S_ 1 := (fun x v => Host.reduce IntOp.andi x v reducesTo_S65536x8_S_d0_1 h_S_) main_v2 main_c
  let main_c_0 : IVec S_ 32 := constantI S_ 32 0#32
  let main_v4 : IVec S65535x2 32 := broadcastInDim S65535x2 ![] bcast_S_S65535x2 main_c_0
  let main_v5 : IVec S65535x2 1 := cmpi .sge main_arg1 main_v4
  let main_c_1 : IVec S_ 32 := constantI S_ 32 65536#32
  let main_v6 : IVec S65535x2 32 := broadcastInDim S65535x2 ![] bcast_S_S65535x2 main_c_1
  let main_v7 : IVec S65535x2 1 := cmpi .slt main_arg1 main_v6
  let main_v8 : IVec S65535x2 1 := andi main_v5 main_v7
  let main_c_2 : IVec S_ 1 := constantI S_ 1 1#1
  let main_v9 : IVec S_ 1 := (fun x v => Host.reduce IntOp.andi x v reducesTo_S65535x2_S_d0_1 h_S_) main_v8 main_c_2
  let main_v10 : IVec S_ 1 := andi main_v3 main_v9
  let main_c_3 : IVec S_ 32 := constantI S_ 32 0#32
  let main_v11 : IVec S2000000x4 32 := broadcastInDim S2000000x4 ![] bcast_S_S2000000x4 main_c_3
  let main_v12 : IVec S2000000x4 1 := cmpi .sge main_arg2 main_v11
  let main_c_4 : IVec S_ 32 := constantI S_ 32 65536#32
  let main_v13 : IVec S2000000x4 32 := broadcastInDim S2000000x4 ![] bcast_S_S2000000x4 main_c_4
  let main_v14 : IVec S2000000x4 1 := cmpi .slt main_arg2 main_v13
  let main_v15 : IVec S2000000x4 1 := andi main_v12 main_v14
  let main_c_5 : IVec S_ 1 := constantI S_ 1 1#1
  fn_part1 (F := F) main_v10 main_v15 main_c_5
-- ==== Kernel.lean ====
abbrev S65536x8 : Shape := ⟨2, ![65536, 8]⟩
abbrev S65535x2 : Shape := ⟨2, ![65535, 2]⟩
abbrev S2000000x4 : Shape := ⟨2, ![2000000, 4]⟩
abbrev S65536x16 : Shape := ⟨2, ![65536, 16]⟩
abbrev S_ : Shape := ⟨0, ![]⟩
abbrev S65536x2 : Shape := ⟨2, ![65536, 2]⟩
abbrev S2002944x4 : Shape := ⟨2, ![2002944, 4]⟩
abbrev S65536x1 : Shape := ⟨2, ![65536, 1]⟩
abbrev S4096x2 : Shape := ⟨2, ![4096, 2]⟩
abbrev S4096x16 : Shape := ⟨2, ![4096, 16]⟩
abbrev S4096x1 : Shape := ⟨2, ![4096, 1]⟩
abbrev S1x256 : Shape := ⟨2, ![1, 256]⟩
abbrev S256x16 : Shape := ⟨2, ![256, 16]⟩
abbrev S4096x256 : Shape := ⟨2, ![4096, 256]⟩
abbrev S4096x8 : Shape := ⟨2, ![4096, 8]⟩
abbrev S4096 : Shape := ⟨1, ![4096]⟩
abbrev S65536 : Shape := ⟨1, ![65536]⟩
abbrev S65535 : Shape := ⟨1, ![65535]⟩
abbrev S2002944x1 : Shape := ⟨2, ![2002944, 1]⟩
abbrev S4096x4 : Shape := ⟨2, ![4096, 4]⟩
abbrev S2002944 : Shape := ⟨1, ![2002944]⟩
abbrev S2000000 : Shape := ⟨1, ![2000000]⟩
abbrev S2000000x1 : Shape := ⟨2, ![2000000, 1]⟩
abbrev S2000000x2 : Shape := ⟨2, ![2000000, 2]⟩

abbrev nBuf : Space → Nat
  | .hbm => 26
  | .vmem => 21
  | .smem => 0
  | _ => 0

abbrev bufTy : (tb : Table) → Fin (tcTables nBuf tb) → BufTy
  | .hbm, ⟨0, _⟩ => ⟨S65536x8, .f32⟩
  | .hbm, ⟨1, _⟩ => ⟨S65535x2, .i32⟩
  | .hbm, ⟨2, _⟩ => ⟨S2000000x4, .i32⟩
  | .hbm, ⟨3, _⟩ => ⟨S65536x8, .bf16⟩
  | .hbm, ⟨4, _⟩ => ⟨S65536x8, .f32⟩
  | .hbm, ⟨5, _⟩ => ⟨S65536x8, .f32⟩
  | .hbm, ⟨6, _⟩ => ⟨S65536x8, .bf16⟩
  | .hbm, ⟨7, _⟩ => ⟨S65536x16, .bf16⟩
  | .hbm, ⟨8, _⟩ => ⟨S_, .i32⟩
  | .hbm, ⟨9, _⟩ => ⟨S_, .i32⟩
  | .hbm, ⟨10, _⟩ => ⟨S65536x2, .i32⟩
  | .hbm, ⟨11, _⟩ => ⟨S_, .i32⟩
  | .hbm, ⟨12, _⟩ => ⟨S_, .i32⟩
  | .hbm, ⟨13, _⟩ => ⟨S2002944x4, .i32⟩
  | .hbm, ⟨14, _⟩ => ⟨S65536x1, .f32⟩
  | .hbm, ⟨15, _⟩ => ⟨S65536, .f32⟩
  | .hbm, ⟨16, _⟩ => ⟨S65535, .f32⟩
  | .hbm, ⟨17, _⟩ => ⟨S2002944x1, .f32⟩
  | .hbm, ⟨18, _⟩ => ⟨S2002944, .f32⟩
  | .hbm, ⟨19, _⟩ => ⟨S2000000, .f32⟩
  | .hbm, ⟨20, _⟩ => ⟨S2002944x1, .f32⟩
  | .hbm, ⟨21, _⟩ => ⟨S2002944, .f32⟩
  | .hbm, ⟨22, _⟩ => ⟨S2000000, .f32⟩
  | .hbm, ⟨23, _⟩ => ⟨S2000000x1, .f32⟩
  | .hbm, ⟨24, _⟩ => ⟨S2000000x1, .f32⟩
  | .hbm, ⟨25, _⟩ => ⟨S2000000x2, .f32⟩
  | .local _ .vmem, ⟨0, _⟩ => ⟨S4096x2, .i32⟩
  | .local _ .vmem, ⟨1, _⟩ => ⟨S4096x2, .i32⟩
  | .local _ .vmem, ⟨2, _⟩ => ⟨S4096x16, .bf16⟩
  | .local _ .vmem, ⟨3, _⟩ => ⟨S4096x16, .bf16⟩
  | .local _ .vmem, ⟨4, _⟩ => ⟨S4096x1, .f32⟩
  | .local _ .vmem, ⟨5, _⟩ => ⟨S4096x1, .f32⟩
  | .local _ .vmem, ⟨6, _⟩ => ⟨S4096x16, .f32⟩
  | .local _ .vmem, ⟨7, _⟩ => ⟨S4096x4, .i32⟩
  | .local _ .vmem, ⟨8, _⟩ => ⟨S4096x4, .i32⟩
  | .local _ .vmem, ⟨9, _⟩ => ⟨S4096x16, .bf16⟩
  | .local _ .vmem, ⟨10, _⟩ => ⟨S4096x16, .bf16⟩
  | .local _ .vmem, ⟨11, _⟩ => ⟨S4096x1, .f32⟩
  | .local _ .vmem, ⟨12, _⟩ => ⟨S4096x1, .f32⟩
  | .local _ .vmem, ⟨13, _⟩ => ⟨S4096x16, .f32⟩
  | .local _ .vmem, ⟨14, _⟩ => ⟨S4096x4, .i32⟩
  | .local _ .vmem, ⟨15, _⟩ => ⟨S4096x4, .i32⟩
  | .local _ .vmem, ⟨16, _⟩ => ⟨S4096x16, .bf16⟩
  | .local _ .vmem, ⟨17, _⟩ => ⟨S4096x16, .bf16⟩
  | .local _ .vmem, ⟨18, _⟩ => ⟨S4096x1, .f32⟩
  | .local _ .vmem, ⟨19, _⟩ => ⟨S4096x1, .f32⟩
  | .local _ .vmem, ⟨20, _⟩ => ⟨S4096x16, .f32⟩
  | _, _ => ⟨S65536x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v408 : BitVec 1 := Scalar.cmpi .eq arg1 c15_i32
  let v409 : BitVec 32 := Scalar.extui v408
  let c0_i32_99 : BitVec 32 := 0#32
  let v410 : BitVec 1 := Scalar.cmpi .ne v409 c0_i32_99
  v410

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![489, 16], ![false, false]⟩

def k1_cond2 (i : grid1.Coords) : BitVec 1 :=
  let arg1 : BitVec 32 := BitVec.ofNat 32 (i 1).val
  let c15_i32 : BitVec 32 := 15#32
  let v408 : BitVec 1 := Scalar.cmpi .eq arg1 c15_i32
  let v409 : BitVec 32 := Scalar.extui v408
  let c0_i32_99 : BitVec 32 := 0#32
  let v410 : BitVec 1 := Scalar.cmpi .ne v409 c0_i32_99
  v410

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x4 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x16 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![489, 16], ![false, false]⟩

def k2_cond2 (i : grid2.Coords) : BitVec 1 :=
  let arg1 : BitVec 32 := BitVec.ofNat 32 (i 1).val
  let c15_i32 : BitVec 32 := 15#32
  let v408 : BitVec 1 := Scalar.cmpi .eq arg1 c15_i32
  let v409 : BitVec 32 := Scalar.extui v408
  let c0_i32_99 : BitVec 32 := 0#32
  let v410 : BitVec 1 := Scalar.cmpi .ne v409 c0_i32_99
  v410

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x4 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x16 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bitsLt_bf16_f32 : FTy.bits .bf16 < FTy.bits .f32
  concatenates_S65536x8_S65536x8_S65536x16_d1 : Shape.Concatenates [S65536x8, S65536x8] S65536x16 1
  pads_S65535x2_S65536x2_010_000 : S65535x2.Pads (![0, 0] : Fin 2 → Nat) ![1, 0] ![0, 0] S65536x2
  h_S_ : 0 < S_.numel
  pads_S2000000x4_S2002944x4_029440_000 : S2000000x4.Pads (![0, 0] : Fin 2 → Nat) ![2944, 0] ![0, 0] S2002944x4
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  slices_S4096x2_o0_0_S4096x1 : S4096x2.Slices ![0, 0] S4096x1
  slices_S4096x2_o0_1_S4096x1 : S4096x2.Slices ![0, 1] S4096x1
  iota_S1x256_d1_w32 : S1x256.Iotas .tc 32 [1]
  inb_S4096x16_S256x16_0_0 : ∀ a, (![0, 0] : Fin 2 → Nat) a + S256x16.size a ≤ S4096x16.size a
  h_S256x16 : 0 < S256x16.numel
  shapeCasts_S256x16_S256x16 : S256x16.ShapeCasts S256x16
  broadcasts_S1x256_S4096x256 : S1x256.Broadcasts S4096x256
  broadcasts_S4096x1_S4096x256 : S4096x1.Broadcasts S4096x256
  natLt_1_32 : 1 < 32
  inb_S4096x16_S256x16_256_0 : ∀ a, (![256, 0] : Fin 2 → Nat) a + S256x16.size a ≤ S4096x16.size a
  inb_S4096x16_S256x16_512_0 : ∀ a, (![512, 0] : Fin 2 → Nat) a + S256x16.size a ≤ S4096x16.size a
  inb_S4096x16_S256x16_768_0 : ∀ a, (![768, 0] : Fin 2 → Nat) a + S256x16.size a ≤ S4096x16.size a
  inb_S4096x16_S256x16_1024_0 : ∀ a, (![1024, 0] : Fin 2 → Nat) a + S256x16.size a ≤ S4096x16.size a
  inb_S4096x16_S256x16_1280_0 : ∀ a, (![1280, 0] : Fin 2 → Nat) a + S256x16.size a ≤ S4096x16.size a
  inb_S4096x16_S256x16_1536_0 : ∀ a, (![1536, 0] : Fin 2 → Nat) a + S256x16.size a ≤ S4096x16.size a
  inb_S4096x16_S256x16_1792_0 : ∀ a, (![1792, 0] : Fin 2 → Nat) a + S256x16.size a ≤ S4096x16.size a
  inb_S4096x16_S256x16_2048_0 : ∀ a, (![2048, 0] : Fin 2 → Nat) a + S256x16.size a ≤ S4096x16.size a
  inb_S4096x16_S256x16_2304_0 : ∀ a, (![2304, 0] : Fin 2 → Nat) a + S256x16.size a ≤ S4096x16.size a
  inb_S4096x16_S256x16_2560_0 : ∀ a, (![2560, 0] : Fin 2 → Nat) a + S256x16.size a ≤ S4096x16.size a
  inb_S4096x16_S256x16_2816_0 : ∀ a, (![2816, 0] : Fin 2 → Nat) a + S256x16.size a ≤ S4096x16.size a
  inb_S4096x16_S256x16_3072_0 : ∀ a, (![3072, 0] : Fin 2 → Nat) a + S256x16.size a ≤ S4096x16.size a
  inb_S4096x16_S256x16_3328_0 : ∀ a, (![3328, 0] : Fin 2 → Nat) a + S256x16.size a ≤ S4096x16.size a
  inb_S4096x16_S256x16_3584_0 : ∀ a, (![3584, 0] : Fin 2 → Nat) a + S256x16.size a ≤ S4096x16.size a
  inb_S4096x16_S256x16_3840_0 : ∀ a, (![3840, 0] : Fin 2 → Nat) a + S256x16.size a ≤ S4096x16.size a
  slices_S4096x16_o0_0_S4096x8 : S4096x16.Slices ![0, 0] S4096x8
  slices_S4096x16_o0_8_S4096x8 : S4096x16.Slices ![0, 8] S4096x8
  reduces_S4096x8_S4096 : S4096x8.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S65536x1_S65536 : S65536x1.ShapeCasts S65536
  slices_S65536_S65535_0 : S65536.Slices ![0] S65535
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  slices_S4096x4_o0_0_S4096x1 : S4096x4.Slices ![0, 0] S4096x1
  slices_S4096x4_o0_1_S4096x1 : S4096x4.Slices ![0, 1] S4096x1
  shapeCasts_S2002944x1_S2002944 : S2002944x1.ShapeCasts S2002944
  slices_S2002944_S2000000_0 : S2002944.Slices ![0] S2000000
  slices_S4096x4_o0_2_S4096x1 : S4096x4.Slices ![0, 2] S4096x1
  slices_S4096x4_o0_3_S4096x1 : S4096x4.Slices ![0, 3] S4096x1
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  dot_S4096x256_S256x16_S4096x16_1_0_0_1_n_n_wf : DotDims.WF S4096x256 S256x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S65536x2.size a
  hwx0_0 : ∀ i : grid0.Coords, EltTy.bits .i32 = 32 ∨ (Rect.block (s := S65536x2) S4096x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S65536x16.size a
  hwx0_1 : ∀ i : grid0.Coords, EltTy.bits .bf16 = 32 ∨ (Rect.block (s := S65536x16) S4096x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S65536x1.size a
  hwx0_2 : ∀ i : grid0.Coords, EltTy.bits .f32 = 32 ∨ (Rect.block (s := S65536x1) S4096x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x4.size a ≤ S2002944x4.size a
  hwx1_0 : ∀ i : grid1.Coords, EltTy.bits .i32 = 32 ∨ (Rect.block (s := S2002944x4) S4096x4.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x16.size a ≤ S65536x16.size a
  hwx1_1 : ∀ i : grid1.Coords, EltTy.bits .bf16 = 32 ∨ (Rect.block (s := S65536x16) S4096x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S2002944x1.size a
  hwx1_2 : ∀ i : grid1.Coords, EltTy.bits .f32 = 32 ∨ (Rect.block (s := S2002944x1) S4096x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x4.size a ≤ S2002944x4.size a
  hwx2_0 : ∀ i : grid2.Coords, EltTy.bits .i32 = 32 ∨ (Rect.block (s := S2002944x4) S4096x4.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x16.size a ≤ S65536x16.size a
  hwx2_1 : ∀ i : grid2.Coords, EltTy.bits .bf16 = 32 ∨ (Rect.block (s := S65536x16) S4096x16.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S2002944x1.size a
  hwx2_2 : ∀ i : grid2.Coords, EltTy.bits .f32 = 32 ∨ (Rect.block (s := S2002944x1) S4096x1.size (cc2_transform_2 i) (hinb2_2 i)).WholeWords (EltTy.packing .f32)

variable [Facts₀]

def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf

abbrev win0_0 : Pipeline.Window sig grid0 :=
  Pipeline.Window.ofSpec (Memref.whole main_v5) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S4096x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4096x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v6) S4096x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S4096x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S4096x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S65536x8 : Shape := ⟨2, ![65536, 8]⟩
abbrev S65535x2 : Shape := ⟨2, ![65535, 2]⟩
abbrev S2000000x4 : Shape := ⟨2, ![2000000, 4]⟩
abbrev S2 : Shape := ⟨1, ![2]⟩
abbrev S65535x1 : Shape := ⟨2, ![65535, 1]⟩
abbrev S65535 : Shape := ⟨1, ![65535]⟩
abbrev S_ : Shape := ⟨0, ![]⟩
abbrev S65535x8 : Shape := ⟨2, ![65535, 8]⟩
abbrev S2x1 : Shape := ⟨2, ![2, 1]⟩
abbrev S2000000x2 : Shape := ⟨2, ![2000000, 2]⟩
abbrev S2000000x2x1 : Shape := ⟨3, ![2000000, 2, 1]⟩
abbrev S2000000x2x8 : Shape := ⟨3, ![2000000, 2, 8]⟩

abbrev nBuf : Space → Nat
  | .hbm => 73
  | .vmem => 0
  | .smem => 0
  | _ => 0

abbrev bufTy : (tb : Table) → Fin (tcTables nBuf tb) → BufTy
  | .hbm, ⟨0, _⟩ => ⟨S65536x8, .f32⟩
  | .hbm, ⟨1, _⟩ => ⟨S65535x2, .i32⟩
  | .hbm, ⟨2, _⟩ => ⟨S2000000x4, .i32⟩
  | .hbm, ⟨3, _⟩ => ⟨S2, .i32⟩
  | .hbm, ⟨4, _⟩ => ⟨S2, .i32⟩
  | .hbm, ⟨5, _⟩ => ⟨S65535x1, .i32⟩
  | .hbm, ⟨6, _⟩ => ⟨S65535, .i32⟩
  | .hbm, ⟨7, _⟩ => ⟨S_, .i32⟩
  | .hbm, ⟨8, _⟩ => ⟨S65535, .i32⟩
  | .hbm, ⟨9, _⟩ => ⟨S65535, .i1⟩
  | .hbm, ⟨10, _⟩ => ⟨S_, .i32⟩
  | .hbm, ⟨11, _⟩ => ⟨S65535, .i32⟩
  | .hbm, ⟨12, _⟩ => ⟨S65535, .i32⟩
  | .hbm, ⟨13, _⟩ => ⟨S65535, .i32⟩
  | .hbm, ⟨14, _⟩ => ⟨S65535x1, .i32⟩
  | .hbm, ⟨15, _⟩ => ⟨S65535x8, .f32⟩
  | .hbm, ⟨16, _⟩ => ⟨S65535x1, .i32⟩
  | .hbm, ⟨17, _⟩ => ⟨S65535, .i32⟩
  | .hbm, ⟨18, _⟩ => ⟨S_, .i32⟩
  | .hbm, ⟨19, _⟩ => ⟨S65535, .i32⟩
  | .hbm, ⟨20, _⟩ => ⟨S65535, .i1⟩
  | .hbm, ⟨21, _⟩ => ⟨S_, .i32⟩
  | .hbm, ⟨22, _⟩ => ⟨S65535, .i32⟩
  | .hbm, ⟨23, _⟩ => ⟨S65535, .i32⟩
  | .hbm, ⟨24, _⟩ => ⟨S65535, .i32⟩
  | .hbm, ⟨25, _⟩ => ⟨S65535x1, .i32⟩
  | .hbm, ⟨26, _⟩ => ⟨S65535x8, .f32⟩
  | .hbm, ⟨27, _⟩ => ⟨S65535x8, .f32⟩
  | .hbm, ⟨28, _⟩ => ⟨S65535x8, .f32⟩
  | .hbm, ⟨29, _⟩ => ⟨S_, .f32⟩
  | .hbm, ⟨30, _⟩ => ⟨S65535, .f32⟩
  | .hbm, ⟨31, _⟩ => ⟨S65535, .f32⟩
  | .hbm, ⟨32, _⟩ => ⟨S_, .i32⟩
  | .hbm, ⟨33, _⟩ => ⟨S2, .i32⟩
  | .hbm, ⟨34, _⟩ => ⟨S2, .i1⟩
  | .hbm, ⟨35, _⟩ => ⟨S_, .i32⟩
  | .hbm, ⟨36, _⟩ => ⟨S2, .i32⟩
  | .hbm, ⟨37, _⟩ => ⟨S2, .i32⟩
  | .hbm, ⟨38, _⟩ => ⟨S2, .i32⟩
  | .hbm, ⟨39, _⟩ => ⟨S2x1, .i32⟩
  | .hbm, ⟨40, _⟩ => ⟨S2000000x2, .i32⟩
  | .hbm, ⟨41, _⟩ => ⟨S_, .i32⟩
  | .hbm, ⟨42, _⟩ => ⟨S2000000x2, .i32⟩
  | .hbm, ⟨43, _⟩ => ⟨S2000000x2, .i1⟩
  | .hbm, ⟨44, _⟩ => ⟨S_, .i32⟩
  | .hbm, ⟨45, _⟩ => ⟨S2000000x2, .i32⟩
  | .hbm, ⟨46, _⟩ => ⟨S2000000x2, .i32⟩
  | .hbm, ⟨47, _⟩ => ⟨S2000000x2, .i32⟩
  | .hbm, ⟨48, _⟩ => ⟨S2000000x2x1, .i32⟩
  | .hbm, ⟨49, _⟩ => ⟨S2000000x2x8, .f32⟩
  | .hbm, ⟨50, _⟩ => ⟨S_, .i32⟩
  | .hbm, ⟨51, _⟩ => ⟨S2, .i32⟩
  | .hbm, ⟨52, _⟩ => ⟨S2, .i1⟩
  | .hbm, ⟨53, _⟩ => ⟨S_, .i32⟩
  | .hbm, ⟨54, _⟩ => ⟨S2, .i32⟩
  | .hbm, ⟨55, _⟩ => ⟨S2, .i32⟩
  | .hbm, ⟨56, _⟩ => ⟨S2, .i32⟩
  | .hbm, ⟨57, _⟩ => ⟨S2x1, .i32⟩
  | .hbm, ⟨58, _⟩ => ⟨S2000000x2, .i32⟩
  | .hbm, ⟨59, _⟩ => ⟨S_, .i32⟩
  | .hbm, ⟨60, _⟩ => ⟨S2000000x2, .i32⟩
  | .hbm, ⟨61, _⟩ => ⟨S2000000x2, .i1⟩
  | .hbm, ⟨62, _⟩ => ⟨S_, .i32⟩
  | .hbm, ⟨63, _⟩ => ⟨S2000000x2, .i32⟩
  | .hbm, ⟨64, _⟩ => ⟨S2000000x2, .i32⟩
  | .hbm, ⟨65, _⟩ => ⟨S2000000x2, .i32⟩
  | .hbm, ⟨66, _⟩ => ⟨S2000000x2x1, .i32⟩
  | .hbm, ⟨67, _⟩ => ⟨S2000000x2x8, .f32⟩
  | .hbm, ⟨68, _⟩ => ⟨S2000000x2x8, .f32⟩
  | .hbm, ⟨69, _⟩ => ⟨S2000000x2x8, .f32⟩
  | .hbm, ⟨70, _⟩ => ⟨S_, .f32⟩
  | .hbm, ⟨71, _⟩ => ⟨S2000000x2, .f32⟩
  | .hbm, ⟨72, _⟩ => ⟨S2000000x2, .f32⟩
  | _, _ => ⟨S65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_c_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_c_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_c_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_c_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_v0 : Ref sig .tc := ⟨.hbm, 69, rfl⟩
abbrev main_call1_cst : Ref sig .tc := ⟨.hbm, 70, rfl⟩
abbrev main_call1_v1 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  slices_S65535x2_S65535x1_0_0 : S65535x2.Slices ![0, 0] S65535x1
  shapeCasts_S65535x1_S65535 : S65535x1.ShapeCasts S65535
  bcast_S_S65535 : S_.BroadcastsInDim S65535 (![] : Fin 0 → Fin S65535.rank)
  bcast_S65535_S65535x1_0 : S65535.BroadcastsInDim S65535x1 (![0] : Fin 1 → Fin S65535x1.rank)
  slices_S65535x2_S65535x1_0_1 : S65535x2.Slices ![0, 1] S65535x1
  reducesTo_S65535x8_S65535_d1 : S65535x8.ReducesTo [1] S65535
  h_S_ : 0 < S_.numel
  bcast_S_S2 : S_.BroadcastsInDim S2 (![] : Fin 0 → Fin S2.rank)
  bcast_S2_S2x1_0 : S2.BroadcastsInDim S2x1 (![0] : Fin 1 → Fin S2x1.rank)
  bcast_S_S2000000x2 : S_.BroadcastsInDim S2000000x2 (![] : Fin 0 → Fin S2000000x2.rank)
  bcast_S2000000x2_S2000000x2x1_0_1 : S2000000x2.BroadcastsInDim S2000000x2x1 (![0, 1] : Fin 2 → Fin S2000000x2x1.rank)
  reducesTo_S2000000x2x8_S2000000x2_d2 : S2000000x2x8.ReducesTo [2] S2000000x2
  gather_S65536x8_S65535x1_S65535x8_1_0_n_n_0_1_18_wf : GatherDims.WF S65536x8 S65535x1 S65535x8 [1] [0] [] [0] [] 1 ![1, 8]
  gather_S2000000x4_S2x1_S2000000x2_0_1_n_n_1_1_20000001_wf : GatherDims.WF S2000000x4 S2x1 S2000000x2 [0] [1] [] [1] [] 1 ![2000000, 1]
  gather_S65536x8_S2000000x2x1_S2000000x2x8_2_0_n_n_0_2_18_wf : GatherDims.WF S65536x8 S2000000x2x1 S2000000x2x8 [2] [0] [] [0] [] 2 ![1, 8]

variable [Facts₀]

def gather_S65536x8_S65535x1_S65535x8_1_0_n_n_0_1_18 : GatherDims S65536x8 S65535x1 S65535x8 where
  offsetDims := [1]
  collapsedSliceDims := [0]
  operandBatchingDims := []
  startIndicesBatchingDims := []
  startIndexMap := [0]
  indexVectorDim := 1
  sliceSizes := ![1, 8]
  wf := gather_S65536x8_S65535x1_S65535x8_1_0_n_n_0_1_18_wf
def gather_S2000000x4_S2x1_S2000000x2_0_1_n_n_1_1_20000001 : GatherDims S2000000x4 S2x1 S2000000x2 where
  offsetDims := [0]
  collapsedSliceDims := [1]
  operandBatchingDims := []
  startIndicesBatchingDims := []
  startIndexMap := [1]
  indexVectorDim := 1
  sliceSizes := ![2000000, 1]
  wf := gather_S2000000x4_S2x1_S2000000x2_0_1_n_n_1_1_20000001_wf
def gather_S65536x8_S2000000x2x1_S2000000x2x8_2_0_n_n_0_2_18 : GatherDims S65536x8 S2000000x2x1 S2000000x2x8 where
  offsetDims := [2]
  collapsedSliceDims := [0]
  operandBatchingDims := []
  startIndicesBatchingDims := []
  startIndexMap := [0]
  indexVectorDim := 2
  sliceSizes := ![1, 8]
  wf := gather_S65536x8_S2000000x2x1_S2000000x2x8_2_0_n_n_0_2_18_wf

class Facts : Prop extends Facts₀ where

variable [Facts]
-- ==== Proof.LibPieces.lean ====
import Idealize.ShloMosaic.Lib.Pipeline.FrameBody
import Idealize.ShloMosaic.Lib.Tactic

namespace Cert.LibPieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : Nat} {τ : Topo} {sig : RefSig}

/-- stores that together cover a whole buffer determine its contents -/
theorem owns_pieces {S : Shape} {e : EltTy} (c : Dev nD) (M : Memref sig .tc .vmem S e) (LS : List (View.Piece (Elt F) S e))
    (hcov : ∀ y, ∃ pc ∈ LS, y ∈ pc.1.set) :
    iprop(∃ f, M.view.loc (c : Thread nD τ) ↦[M.view.set]{fullShare} M.view.writes (Elt F) f LS)
      ⊢ (owns (c : Thread nD τ) M fullShare (M.view.read (Elt F) (M.view.writes (Elt F) M.view.junk LS)) :
          sProp (MT nD τ sig Unit (Elt F) ℕ (UR sig nD τ) ℕ)) := by
  iintro ⟨%f, H⟩
  unfold owns; iexists _; isplitr
  swap; · iexact H
  ipureintro; exact View.read_writes_of_cover _ _ _ _ _ hcov

/-- a whole buffer at the raw contents that read `x` is owned at `x` (`owns`, unfolded) -/
theorem owns_unread {S : Shape} {e : EltTy} (c : Dev nD) {M : Memref sig .tc .vmem S e} (h : M.IsWhole) (x : S.Idx → Elt F e) :
    (M.view.loc (c : Thread nD τ) ↦[M.view.set]{fullShare} h.unread x : sProp (MT nD τ sig Unit (Elt F) ℕ (UR sig nD τ) ℕ))
      ⊢ iprop(∃ f, ⌜M.view.read (Elt F) f = x⌝ ∗ M.view.loc (c : Thread nD τ) ↦[M.view.set]{fullShare} f) := by
  iintro H
  iexists _; isplitr
  swap; · iexact H
  ipureintro; exact h.read_unread _

end Cert.LibPieces
-- ==== Proof.KB.R0Run.lean ====
import proofs.«425186_j76596446757483_2_alg».proof.Proof.Gen.Kernel.Launch
import proofs.«425186_j76596446757483_2_alg».proof.Proof.Gen.Kernel.Skeleton
import proofs.«425186_j76596446757483_2_alg».proof.Proof.Gen.Kernel.Points
import proofs.«425186_j76596446757483_2_alg».proof.Proof.LibPieces
import Idealize.ShloMosaic.Lib.Pipeline.FrameSuffix
import Idealize.ShloMosaic.Lib.Ring

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

/-- the first table tile of a sweep (coordinate 0), and below the last (coordinate 15) -/
abbrev first0 (i : grid0.Coords) : Prop :=
  (Scalar.cmpi .ne (Scalar.extui (Scalar.cmpi .eq (BitVec.ofNat 32 (i 1).val) 0#32)) 0#32) = 1#1

abbrev last0 (i : grid0.Coords) : Prop := k0_cond2 i = 1#1

theorem first0_iff : ∀ t : Fin cfg0.N, first0 (grid0.coords t) ↔ t.val % 16 = 0 :=
  (by decide +kernel : ∀ t : Fin grid0.N, first0 (grid0.coords t) ↔ t.val % 16 = 0)

theorem last0_iff : ∀ t : Fin cfg0.N, last0 (grid0.coords t) ↔ t.val % 16 = 15 :=
  (by decide +kernel : ∀ t : Fin grid0.N, last0 (grid0.coords t) ↔ t.val % 16 = 15)

variable (c : Dev nD) (i : grid0.Coords)
    (arg2 : Memref sig .tc .vmem S4096x2 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- the body's run at the first table tile of a sweep: the running sums start from zero -/
def run0_first (hc0 : first0 i) (hc1 : ¬last0 i)
    (x0 : Vec F S4096x2 .i32) (x1 : Vec F S4096x16 .bf16) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_norm_kernel i arg2 harg2 arg3 harg3 arg4 harg4 arg5 harg5) K } := by
  refine ⟨?_, fun xo E K => ?run⟩
  case run =>
    simp only [cc0__gather_norm_kernel_eq_skeleton]; unfold cc0__gather_norm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at a table tile inside a sweep: the running sums `xs` of the tile before go on -/
def run0_mid (hc0 : ¬first0 i) (hc1 : ¬last0 i)
    (x0 : Vec F S4096x2 .i32) (x1 : Vec F S4096x16 .bf16) (xs : Vec F S4096x16 .f32) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_norm_kernel i arg2 harg2 arg3 harg3 arg4 harg4 arg5 harg5) K } := by
  refine ⟨?_, fun xo E K => ?run⟩
  case run =>
    simp only [cc0__gather_norm_kernel_eq_skeleton]; unfold cc0__gather_norm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at the last table tile: the same, and the norms are written -/
def run0_last (hc0 : ¬first0 i) (hc1 : last0 i)
    (x0 : Vec F S4096x2 .i32) (x1 : Vec F S4096x16 .bf16) (xs : Vec F S4096x16 .f32) :
    Σ' (LO : List (View.Piece (Elt F) S4096x1 .f32)), { LS : List (View.Piece (Elt F) S4096x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_norm_kernel i arg2 harg2 arg3 harg3 arg4 harg4 arg5 harg5) K } := by
  refine ⟨?_, ?_, fun E K => ?run⟩
  case run =>
    simp only [cc0__gather_norm_kernel_eq_skeleton]; unfold cc0__gather_norm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    ihave H0 := owns_unread c harg2 _ $$ H0
    ihave H1 := owns_unread c harg3 _ $$ H1
    iframe H0 H1
    isplitl [H2]
    · iexists _; iexact H2
    iexists _; iexact HS

end Cert.Kernel.Hand

end
-- ==== Proof.KB.R0Dat.lean ====
import proofs.«425186_j76596446757483_2_alg».proof.Proof.KB.R0Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms0_0 (t : Fin cfg0.N) : Memref sig .tc .vmem S4096x2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .f32 := win0_2.stage (cfg0.slots t 2)
abbrev hs0_2 (t : Fin cfg0.N) : (ms0_2 t).IsWhole := hstage0_2 ((cfg0.slots t 2).cast nbuf0_2)
abbrev scM0 : Memref sig .tc .vmem S4096x16 .f32 := Memref.whole cc0_scratch0
abbrev VS0 : View sig .tc .vmem S4096x16 .f32 := scM0.view
abbrev VO0 : View sig .tc .vmem S4096x1 .f32 := (Memref.whole cc0_stg2_0 : Memref sig .tc .vmem S4096x1 .f32).view

/-- window `w`'s block of its array at grid point `t` -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

theorem PhiA0_eq (c : Dev nD) :
    (Pipeline.ΦA spec0 c : sProp 𝕄)
      = iprop(((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list (win := spec0) (c := c) [cc0_scratch0] (by decide) (by decide)]
  rw [bigSepL_singleton]
  simp only [scM0, owns_whole]; try rfl

section Pieces
variable (c : Dev nD) (i : grid0.Coords)
    (arg2 : Memref sig .tc .vmem S4096x2 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- what each control case leaves of the running sums (at the last table tile also the norms) -/
def accFirst0 (hc0 : first0 i) (hc1 : ¬last0 i) (x0 : Vec F S4096x2 .i32) (x1 : Vec F S4096x16 .bf16) : Vec F S4096x16 .f32 :=
  VS0.read (Elt F) (VS0.writes (Elt F) VS0.junk (run0_first c i arg2 harg2 arg3 harg3 arg4 harg4 arg5 harg5 hc0 hc1 x0 x1).1)

theorem coverFirst0 (hc0 : first0 i) (hc1 : ¬last0 i) (x0 : Vec F S4096x2 .i32) (x1 : Vec F S4096x16 .bf16) (y : S4096x16.Idx) :
    ∃ pc ∈ (run0_first c i arg2 harg2 arg3 harg3 arg4 harg4 arg5 harg5 hc0 hc1 x0 x1).1, y ∈ pc.1.set :=
  View.cover_of_tiledL _ S4096x16.size (by sl_kernel_rfl) y

def accMid0 (hc0 : ¬first0 i) (hc1 : ¬last0 i) (x0 : Vec F S4096x2 .i32) (x1 : Vec F S4096x16 .bf16) (xs : Vec F S4096x16 .f32) : Vec F S4096x16 .f32 :=
  VS0.read (Elt F) (VS0.writes (Elt F) VS0.junk (run0_mid c i arg2 harg2 arg3 harg3 arg4 harg4 arg5 harg5 hc0 hc1 x0 x1 xs).1)

theorem coverMid0 (hc0 : ¬first0 i) (hc1 : ¬last0 i) (x0 : Vec F S4096x2 .i32) (x1 : Vec F S4096x16 .bf16) (xs : Vec F S4096x16 .f32) (y : S4096x16.Idx) :
    ∃ pc ∈ (run0_mid c i arg2 harg2 arg3 harg3 arg4 harg4 arg5 harg5 hc0 hc1 x0 x1 xs).1, y ∈ pc.1.set :=
  View.cover_of_tiledL _ S4096x16.size (by sl_kernel_rfl) y

def accLast0 (hc0 : ¬first0 i) (hc1 : last0 i) (x0 : Vec F S4096x2 .i32) (x1 : Vec F S4096x16 .bf16) (xs : Vec F S4096x16 .f32) : Vec F S4096x16 .f32 :=
  VS0.read (Elt F) (VS0.writes (Elt F) VS0.junk (run0_last c i arg2 harg2 arg3 harg3 arg4 harg4 arg5 harg5 hc0 hc1 x0 x1 xs).2.1)

theorem coverAccLast0 (hc0 : ¬first0 i) (hc1 : last0 i) (x0 : Vec F S4096x2 .i32) (x1 : Vec F S4096x16 .bf16) (xs : Vec F S4096x16 .f32) (y : S4096x16.Idx) :
    ∃ pc ∈ (run0_last c i arg2 harg2 arg3 harg3 arg4 harg4 arg5 harg5 hc0 hc1 x0 x1 xs).2.1, y ∈ pc.1.set :=
  View.cover_of_tiledL _ S4096x16.size (by sl_kernel_rfl) y

def outLast0 (hc0 : ¬first0 i) (hc1 : last0 i) (x0 : Vec F S4096x2 .i32) (x1 : Vec F S4096x16 .bf16) (xs : Vec F S4096x16 .f32) : Vec F S4096x1 .f32 :=
  VO0.read (Elt F) (VO0.writes (Elt F) VO0.junk (run0_last c i arg2 harg2 arg3 harg3 arg4 harg4 arg5 harg5 hc0 hc1 x0 x1 xs).1)

theorem coverOutLast0 (hc0 : ¬first0 i) (hc1 : last0 i) (x0 : Vec F S4096x2 .i32) (x1 : Vec F S4096x16 .bf16) (xs : Vec F S4096x16 .f32) (y : S4096x1.Idx) :
    ∃ pc ∈ (run0_last c i arg2 harg2 arg3 harg3 arg4 harg4 arg5 harg5 hc0 hc1 x0 x1 xs).1, y ∈ pc.1.set :=
  View.cover_of_tiledL _ S4096x1.size (by sl_kernel_rfl) y

end Pieces

theorem N0 : cfg0.N = 256 := N_0

/-- what grid point `t` makes of the running sums the point before left, by its place in the sweep (first component: the norms, written at a sweep's end only) -/
def step0 (c : Dev nD) (t : Fin cfg0.N) (prev : Vec F S4096x16 .f32) : Vec F S4096x1 .f32 × Vec F S4096x16 .f32 :=
  if h0 : t.val % 16 = 0 then (VO0.read (Elt F) VO0.junk, accFirst0 c (grid0.coords t) (ms0_0 t) (hs0_0 t) (ms0_1 t) (hs0_1 t) (ms0_2 t) (hs0_2 t) scM0 (Memref.isWhole_whole _) ((first0_iff t).mpr h0) (fun h => by have := (last0_iff t).mp h; omega) (iblk0 V c 0 t) (iblk0 V c 1 t))
  else if h1 : t.val % 16 = 15 then (outLast0 c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) prev, accLast0 c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) prev)
  else (VO0.read (Elt F) VO0.junk, accMid0 c (grid0.coords t) (ms0_0 t) (hs0_0 t) (ms0_1 t) (hs0_1 t) (ms0_2 t) (hs0_2 t) scM0 (Memref.isWhole_whole _) (fun h => h0 ((first0_iff t).mp h)) (fun h => h1 ((last0_iff t).mp h)) (iblk0 V c 0 t) (iblk0 V c 1 t) prev)

def outsAt0 (c : Dev nD) : (n : ℕ) → n < cfg0.N → Vec F S4096x1 .f32 × Vec F S4096x16 .f32
  | 0, hn => step0 V c ⟨0, hn⟩ (VS0.read (Elt F) VS0.junk)
  | n + 1, hn => step0 V c ⟨n + 1, hn⟩ (outsAt0 c n (Nat.lt_of_succ_lt hn)).2

theorem outsAt0_succ (c : Dev nD) (t : Fin cfg0.N) (h0 : ¬t.val % 16 = 0) :
    outsAt0 V c t.val t.isLt = step0 V c t (outsAt0 V c (t.val - 1) (Nat.lt_of_le_of_lt (Nat.sub_le _ _) t.isLt)).2 := by
  obtain ⟨n, hn⟩ := t
  cases n with
  | zero => exact absurd (Nat.zero_mod _) h0
  | succ n => rfl

/-- a sweep's first point does not look at what came before -/
theorem outsAt0_first (c : Dev nD) (t : Fin cfg0.N) (h0 : t.val % 16 = 0) :
    outsAt0 V c t.val t.isLt = (VO0.read (Elt F) VO0.junk, accFirst0 c (grid0.coords t) (ms0_0 t) (hs0_0 t) (ms0_1 t) (hs0_1 t) (ms0_2 t) (hs0_2 t) scM0 (Memref.isWhole_whole _) ((first0_iff t).mpr h0) (fun h => by have := (last0_iff t).mp h; omega) (iblk0 V c 0 t) (iblk0 V c 1 t)) := by
  obtain ⟨n, hn⟩ := t
  cases n <;> (unfold outsAt0 step0; exact dif_pos h0)

theorem outsAt0_mid (c : Dev nD) (t : Fin cfg0.N) (h0 : ¬t.val % 16 = 0) (h1 : ¬t.val % 16 = 15) :
    outsAt0 V c t.val t.isLt = (VO0.read (Elt F) VO0.junk, accMid0 c (grid0.coords t) (ms0_0 t) (hs0_0 t) (ms0_1 t) (hs0_1 t) (ms0_2 t) (hs0_2 t) scM0 (Memref.isWhole_whole _) (fun h => h0 ((first0_iff t).mp h)) (fun h => h1 ((last0_iff t).mp h)) (iblk0 V c 0 t) (iblk0 V c 1 t) (outsAt0 V c (t.val - 1) (Nat.lt_of_le_of_lt (Nat.sub_le _ _) t.isLt)).2) := by
  rw [outsAt0_succ V c t h0]; unfold step0; rw [dif_neg h0, dif_neg h1]

theorem outsAt0_last (c : Dev nD) (t : Fin cfg0.N) (h0 : ¬t.val % 16 = 0) (h1 : t.val % 16 = 15) :
    outsAt0 V c t.val t.isLt = (outLast0 c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) (outsAt0 V c (t.val - 1) (Nat.lt_of_le_of_lt (Nat.sub_le _ _) t.isLt)).2, accLast0 c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) (outsAt0 V c (t.val - 1) (Nat.lt_of_le_of_lt (Nat.sub_le _ _) t.isLt)).2) := by
  rw [outsAt0_succ V c t h0]; unfold step0; rw [dif_neg h0, dif_pos h1]

def Phi0 (c : Dev nD) : (n : ℕ) → n ≤ cfg0.N → sProp 𝕄
  | 0, _ => Pipeline.ΦA spec0 c
  | n + 1, hn => iprop((owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem Phi0_pos (c : Dev nD) (n : ℕ) (h : n ≤ cfg0.N) (hz : n ≠ 0) :
    Phi0 V c n h = iprop((owns (c : Thread nD τ) scM0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

theorem Phi0_out (c : Dev nD) (n : ℕ) (h : n ≤ cfg0.N) : Phi0 V c n h ⊢ (Pipeline.ΦA spec0 c : sProp 𝕄) := by
  cases n with
  | zero => exact .rfl
  | succ n =>
    rw [Phi0_pos V c _ h (Nat.succ_ne_zero n), PhiA0_eq]
    iintro ⟨⟨HS, Hr⟩, Hg⟩
    isplitl [HS Hr]
    · isplitl [HS]; · iexists _; iexact HS
      iexact Hr
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := Phi0 V c t.val (Nat.le_of_lt_succ t.isLt)
  q _ := fullShare
  owed _ := 0

theorem after0_2 (c : Dev nD) (t : Fin cfg0.N) : (dat0 V c).after 2 t = (outsAt0 V c t.val t.isLt).1 := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

/-- the body at any grid point, by the point's place in its sweep -/
theorem sound_body0 (c : Dev nD) (t : Fin cfg0.N) :
    iprop(Phi0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
      ⊢ wp frame (wpE (defs₀ (F := F)) Variants.none c none) Set.univ (bodyAt0 t) (fun _ =>
        iprop(Phi0 V c (t.val + 1) t.isLt ∗ (dat0 V c).owesAt () t.castSucc
          ∗ owns (c : Thread nD τ) (ms0_0 t) fullShare (iblk0 V c 0 t) ∗ owns (c : Thread nD τ) (ms0_1 t) fullShare (iblk0 V c 1 t)
          ∗ (dat0 V c).leavesExact 2 t)) := by
  unfold bodyAt0
  simp only [before0_0, before0_1]
  rw [Phi0]
  have hN : t.val < 256 := lt_of_lt_of_eq t.isLt N0
  have hf := first0_iff t
  have hl := last0_iff t
  by_cases h0 : t.val % 16 = 0
  · have nl : ¬last0 (grid0.coords t) := fun h => by have := hl.mp h; omega
    rw [Dat.leavesExact_idle (dat0 V c) 2 t (idle0_2 t nl) (noFlush0_2 t nl), outsAt0_first V c t h0]
    unfold accFirst0; dsimp only
    refine (sep_mono_left (Phi0_out V c _ _)).trans ?_
    rw [PhiA0_eq]
    iintro ⟨⟨⟨HS, Hrest⟩, Hg⟩, Ho, ⟨%d0, H0⟩, ⟨%d1, H1⟩, ⟨%d2, H2⟩⟩
    iapply ((run0_first c _ _ _ _ _ _ _ _ _ (hf.mpr h0) nl (iblk0 V c 0 t) (iblk0 V c 1 t)).2 _ Set.univ _)
    iframe H0 H1 H2 HS
    iintro ⟨H0, H1, H2, HS⟩
    ihave HS := owns_pieces c scM0 _ (coverFirst0 c _ _ _ _ _ _ _ _ _ _ _ _ _) $$ HS
    iframe HS Hrest Hg Ho H0 H1
    iexists _; iexact H2
  · have hz : t.val ≠ 0 := fun h => h0 (by rw [h])
    rw [Phi0_pos V c _ _ hz]
    have nf : ¬first0 (grid0.coords t) := fun h => h0 (hf.mp h)
    by_cases h1 : t.val % 16 = 15
    · rw [show (dat0 V c).leavesExact 2 t = owns (c : Thread nD τ) (ms0_2 t) fullShare ((dat0 V c).after 2 t) from by
        unfold Dat.leavesExact; rw [live0_2 t (hl.mpr h1)], after0_2, outsAt0_last V c t h0 h1]
      unfold outLast0 accLast0; dsimp only
      iintro ⟨⟨⟨HS, Hrest⟩, Hg⟩, Ho, ⟨%d0, H0⟩, ⟨%d1, H1⟩, ⟨%d2, H2⟩⟩
      iapply ((run0_last c _ _ _ _ _ _ _ _ _ nf (hl.mpr h1) (iblk0 V c 0 t) (iblk0 V c 1 t) _).2.2 Set.univ _)
      iframe H0 H1
      isplitl [H2]; · iexists _; iexact H2
      iframe HS
      iintro ⟨H0, H1, ⟨%e2, H2⟩, HS⟩
      ihave HS := owns_pieces c scM0 _ (coverAccLast0 c _ _ _ _ _ _ _ _ _ _ _ _ _ _) $$ HS
      iframe HS Hrest Hg Ho H0 H1
      unfold owns; iexists _; isplitr
      swap; · iexact H2
      ipureintro; exact View.read_writes_of_cover _ _ _ _ _ (coverOutLast0 c _ _ _ _ _ _ _ _ _ _ _ _ _ _)
    · have nl : ¬last0 (grid0.coords t) := fun h => h1 (hl.mp h)
      rw [Dat.leavesExact_idle (dat0 V c) 2 t (idle0_2 t nl) (noFlush0_2 t nl), outsAt0_mid V c t h0 h1]
      unfold accMid0; dsimp only
      iintro ⟨⟨⟨HS, Hrest⟩, Hg⟩, Ho, ⟨%d0, H0⟩, ⟨%d1, H1⟩, ⟨%d2, H2⟩⟩
      iapply ((run0_mid c _ _ _ _ _ _ _ _ _ nf nl (iblk0 V c 0 t) (iblk0 V c 1 t) _).2 _ Set.univ _)
      iframe H0 H1 H2 HS
      iintro ⟨H0, H1, H2, HS⟩
      ihave HS := owns_pieces c scM0 _ (coverMid0 c _ _ _ _ _ _ _ _ _ _ _ _ _ _) $$ HS
      iframe HS Hrest Hg Ho H0 H1
      iexists _; iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1Run.lean ====
import proofs.«425186_j76596446757483_2_alg».proof.Proof.Gen.Kernel.Launch
import proofs.«425186_j76596446757483_2_alg».proof.Proof.Gen.Kernel.Skeleton
import proofs.«425186_j76596446757483_2_alg».proof.Proof.Gen.Kernel.Points
import proofs.«425186_j76596446757483_2_alg».proof.Proof.LibPieces
import Idealize.ShloMosaic.Lib.Pipeline.FrameSuffix
import Idealize.ShloMosaic.Lib.Ring

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

/-- the first table tile of a sweep (coordinate 0), and below the last (coordinate 15) -/
abbrev first1 (i : grid1.Coords) : Prop :=
  (Scalar.cmpi .ne (Scalar.extui (Scalar.cmpi .eq (BitVec.ofNat 32 (i 1).val) 0#32)) 0#32) = 1#1

abbrev last1 (i : grid1.Coords) : Prop := k1_cond2 i = 1#1

theorem first1_iff : ∀ t : Fin cfg1.N, first1 (grid1.coords t) ↔ t.val % 16 = 0 :=
  (by decide +kernel : ∀ t : Fin grid1.N, first1 (grid1.coords t) ↔ t.val % 16 = 0)

theorem last1_iff : ∀ t : Fin cfg1.N, last1 (grid1.coords t) ↔ t.val % 16 = 15 :=
  (by decide +kernel : ∀ t : Fin grid1.N, last1 (grid1.coords t) ↔ t.val % 16 = 15)

variable (c : Dev nD) (i : grid1.Coords)
    (arg2 : Memref sig .tc .vmem S4096x4 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- the body's run at the first table tile of a sweep: the running sums start from zero -/
def run1_first (hc0 : first1 i) (hc1 : ¬last1 i)
    (x0 : Vec F S4096x4 .i32) (x1 : Vec F S4096x16 .bf16) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__gather_norm_kernel i arg2 harg2 arg3 harg3 arg4 harg4 arg5 harg5) K } := by
  refine ⟨?_, fun xo E K => ?run⟩
  case run =>
    simp only [cc1__gather_norm_kernel_eq_skeleton]; unfold cc1__gather_norm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at a table tile inside a sweep: the running sums `xs` of the tile before go on -/
def run1_mid (hc0 : ¬first1 i) (hc1 : ¬last1 i)
    (x0 : Vec F S4096x4 .i32) (x1 : Vec F S4096x16 .bf16) (xs : Vec F S4096x16 .f32) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__gather_norm_kernel i arg2 harg2 arg3 harg3 arg4 harg4 arg5 harg5) K } := by
  refine ⟨?_, fun xo E K => ?run⟩
  case run =>
    simp only [cc1__gather_norm_kernel_eq_skeleton]; unfold cc1__gather_norm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at the last table tile: the same, and the norms are written -/
def run1_last (hc0 : ¬first1 i) (hc1 : last1 i)
    (x0 : Vec F S4096x4 .i32) (x1 : Vec F S4096x16 .bf16) (xs : Vec F S4096x16 .f32) :
    Σ' (LO : List (View.Piece (Elt F) S4096x1 .f32)), { LS : List (View.Piece (Elt F) S4096x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__gather_norm_kernel i arg2 harg2 arg3 harg3 arg4 harg4 arg5 harg5) K } := by
  refine ⟨?_, ?_, fun E K => ?run⟩
  case run =>
    simp only [cc1__gather_norm_kernel_eq_skeleton]; unfold cc1__gather_norm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    ihave H0 := owns_unread c harg2 _ $$ H0
    ihave H1 := owns_unread c harg3 _ $$ H1
    iframe H0 H1
    isplitl [H2]
    · iexists _; iexact H2
    iexists _; iexact HS

end Cert.Kernel.Hand

end
-- ==== Proof.KB.R1Dat.lean ====
import proofs.«425186_j76596446757483_2_alg».proof.Proof.KB.R1Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms1_0 (t : Fin cfg1.N) : Memref sig .tc .vmem S4096x4 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x16 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x1 .f32 := win1_2.stage (cfg1.slots t 2)
abbrev hs1_2 (t : Fin cfg1.N) : (ms1_2 t).IsWhole := hstage1_2 ((cfg1.slots t 2).cast nbuf1_2)
abbrev scM1 : Memref sig .tc .vmem S4096x16 .f32 := Memref.whole cc1_scratch0
abbrev VS1 : View sig .tc .vmem S4096x16 .f32 := scM1.view
abbrev VO1 : View sig .tc .vmem S4096x1 .f32 := (Memref.whole cc1_stg2_0 : Memref sig .tc .vmem S4096x1 .f32).view

/-- window `w`'s block of its array at grid point `t` -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

theorem PhiA1_eq (c : Dev nD) :
    (Pipeline.ΦA spec1 c : sProp 𝕄)
      = iprop(((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list (win := spec1) (c := c) [cc1_scratch0] (by decide) (by decide)]
  rw [bigSepL_singleton]
  simp only [scM1, owns_whole]; try rfl

section Pieces
variable (c : Dev nD) (i : grid1.Coords)
    (arg2 : Memref sig .tc .vmem S4096x4 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- what each control case leaves of the running sums (at the last table tile also the norms) -/
def accFirst1 (hc0 : first1 i) (hc1 : ¬last1 i) (x0 : Vec F S4096x4 .i32) (x1 : Vec F S4096x16 .bf16) : Vec F S4096x16 .f32 :=
  VS1.read (Elt F) (VS1.writes (Elt F) VS1.junk (run1_first c i arg2 harg2 arg3 harg3 arg4 harg4 arg5 harg5 hc0 hc1 x0 x1).1)

theorem coverFirst1 (hc0 : first1 i) (hc1 : ¬last1 i) (x0 : Vec F S4096x4 .i32) (x1 : Vec F S4096x16 .bf16) (y : S4096x16.Idx) :
    ∃ pc ∈ (run1_first c i arg2 harg2 arg3 harg3 arg4 harg4 arg5 harg5 hc0 hc1 x0 x1).1, y ∈ pc.1.set :=
  View.cover_of_tiledL _ S4096x16.size (by sl_kernel_rfl) y

def accMid1 (hc0 : ¬first1 i) (hc1 : ¬last1 i) (x0 : Vec F S4096x4 .i32) (x1 : Vec F S4096x16 .bf16) (xs : Vec F S4096x16 .f32) : Vec F S4096x16 .f32 :=
  VS1.read (Elt F) (VS1.writes (Elt F) VS1.junk (run1_mid c i arg2 harg2 arg3 harg3 arg4 harg4 arg5 harg5 hc0 hc1 x0 x1 xs).1)

theorem coverMid1 (hc0 : ¬first1 i) (hc1 : ¬last1 i) (x0 : Vec F S4096x4 .i32) (x1 : Vec F S4096x16 .bf16) (xs : Vec F S4096x16 .f32) (y : S4096x16.Idx) :
    ∃ pc ∈ (run1_mid c i arg2 harg2 arg3 harg3 arg4 harg4 arg5 harg5 hc0 hc1 x0 x1 xs).1, y ∈ pc.1.set :=
  View.cover_of_tiledL _ S4096x16.size (by sl_kernel_rfl) y

def accLast1 (hc0 : ¬first1 i) (hc1 : last1 i) (x0 : Vec F S4096x4 .i32) (x1 : Vec F S4096x16 .bf16) (xs : Vec F S4096x16 .f32) : Vec F S4096x16 .f32 :=
  VS1.read (Elt F) (VS1.writes (Elt F) VS1.junk (run1_last c i arg2 harg2 arg3 harg3 arg4 harg4 arg5 harg5 hc0 hc1 x0 x1 xs).2.1)

theorem coverAccLast1 (hc0 : ¬first1 i) (hc1 : last1 i) (x0 : Vec F S4096x4 .i32) (x1 : Vec F S4096x16 .bf16) (xs : Vec F S4096x16 .f32) (y : S4096x16.Idx) :
    ∃ pc ∈ (run1_last c i arg2 harg2 arg3 harg3 arg4 harg4 arg5 harg5 hc0 hc1 x0 x1 xs).2.1, y ∈ pc.1.set :=
  View.cover_of_tiledL _ S4096x16.size (by sl_kernel_rfl) y

def outLast1 (hc0 : ¬first1 i) (hc1 : last1 i) (x0 : Vec F S4096x4 .i32) (x1 : Vec F S4096x16 .bf16) (xs : Vec F S4096x16 .f32) : Vec F S4096x1 .f32 :=
  VO1.read (Elt F) (VO1.writes (Elt F) VO1.junk (run1_last c i arg2 harg2 arg3 harg3 arg4 harg4 arg5 harg5 hc0 hc1 x0 x1 xs).1)

theorem coverOutLast1 (hc0 : ¬first1 i) (hc1 : last1 i) (x0 : Vec F S4096x4 .i32) (x1 : Vec F S4096x16 .bf16) (xs : Vec F S4096x16 .f32) (y : S4096x1.Idx) :
    ∃ pc ∈ (run1_last c i arg2 harg2 arg3 harg3 arg4 harg4 arg5 harg5 hc0 hc1 x0 x1 xs).1, y ∈ pc.1.set :=
  View.cover_of_tiledL _ S4096x1.size (by sl_kernel_rfl) y

end Pieces

theorem N1 : cfg1.N = 7824 := N_1

/-- what grid point `t` makes of the running sums the point before left, by its place in the sweep (first component: the norms, written at a sweep's end only) -/
def step1 (c : Dev nD) (t : Fin cfg1.N) (prev : Vec F S4096x16 .f32) : Vec F S4096x1 .f32 × Vec F S4096x16 .f32 :=
  if h0 : t.val % 16 = 0 then (VO1.read (Elt F) VO1.junk, accFirst1 c (grid1.coords t) (ms1_0 t) (hs1_0 t) (ms1_1 t) (hs1_1 t) (ms1_2 t) (hs1_2 t) scM1 (Memref.isWhole_whole _) ((first1_iff t).mpr h0) (fun h => by have := (last1_iff t).mp h; omega) (iblk1 V c 0 t) (iblk1 V c 1 t))
  else if h1 : t.val % 16 = 15 then (outLast1 c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) prev, accLast1 c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) prev)
  else (VO1.read (Elt F) VO1.junk, accMid1 c (grid1.coords t) (ms1_0 t) (hs1_0 t) (ms1_1 t) (hs1_1 t) (ms1_2 t) (hs1_2 t) scM1 (Memref.isWhole_whole _) (fun h => h0 ((first1_iff t).mp h)) (fun h => h1 ((last1_iff t).mp h)) (iblk1 V c 0 t) (iblk1 V c 1 t) prev)

def outsAt1 (c : Dev nD) : (n : ℕ) → n < cfg1.N → Vec F S4096x1 .f32 × Vec F S4096x16 .f32
  | 0, hn => step1 V c ⟨0, hn⟩ (VS1.read (Elt F) VS1.junk)
  | n + 1, hn => step1 V c ⟨n + 1, hn⟩ (outsAt1 c n (Nat.lt_of_succ_lt hn)).2

theorem outsAt1_succ (c : Dev nD) (t : Fin cfg1.N) (h0 : ¬t.val % 16 = 0) :
    outsAt1 V c t.val t.isLt = step1 V c t (outsAt1 V c (t.val - 1) (Nat.lt_of_le_of_lt (Nat.sub_le _ _) t.isLt)).2 := by
  obtain ⟨n, hn⟩ := t
  cases n with
  | zero => exact absurd (Nat.zero_mod _) h0
  | succ n => rfl

/-- a sweep's first point does not look at what came before -/
theorem outsAt1_first (c : Dev nD) (t : Fin cfg1.N) (h0 : t.val % 16 = 0) :
    outsAt1 V c t.val t.isLt = (VO1.read (Elt F) VO1.junk, accFirst1 c (grid1.coords t) (ms1_0 t) (hs1_0 t) (ms1_1 t) (hs1_1 t) (ms1_2 t) (hs1_2 t) scM1 (Memref.isWhole_whole _) ((first1_iff t).mpr h0) (fun h => by have := (last1_iff t).mp h; omega) (iblk1 V c 0 t) (iblk1 V c 1 t)) := by
  obtain ⟨n, hn⟩ := t
  cases n <;> (unfold outsAt1 step1; exact dif_pos h0)

theorem outsAt1_mid (c : Dev nD) (t : Fin cfg1.N) (h0 : ¬t.val % 16 = 0) (h1 : ¬t.val % 16 = 15) :
    outsAt1 V c t.val t.isLt = (VO1.read (Elt F) VO1.junk, accMid1 c (grid1.coords t) (ms1_0 t) (hs1_0 t) (ms1_1 t) (hs1_1 t) (ms1_2 t) (hs1_2 t) scM1 (Memref.isWhole_whole _) (fun h => h0 ((first1_iff t).mp h)) (fun h => h1 ((last1_iff t).mp h)) (iblk1 V c 0 t) (iblk1 V c 1 t) (outsAt1 V c (t.val - 1) (Nat.lt_of_le_of_lt (Nat.sub_le _ _) t.isLt)).2) := by
  rw [outsAt1_succ V c t h0]; unfold step1; rw [dif_neg h0, dif_neg h1]

theorem outsAt1_last (c : Dev nD) (t : Fin cfg1.N) (h0 : ¬t.val % 16 = 0) (h1 : t.val % 16 = 15) :
    outsAt1 V c t.val t.isLt = (outLast1 c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) (outsAt1 V c (t.val - 1) (Nat.lt_of_le_of_lt (Nat.sub_le _ _) t.isLt)).2, accLast1 c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) (outsAt1 V c (t.val - 1) (Nat.lt_of_le_of_lt (Nat.sub_le _ _) t.isLt)).2) := by
  rw [outsAt1_succ V c t h0]; unfold step1; rw [dif_neg h0, dif_pos h1]

def Phi1 (c : Dev nD) : (n : ℕ) → n ≤ cfg1.N → sProp 𝕄
  | 0, _ => Pipeline.ΦA spec1 c
  | n + 1, hn => iprop((owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem Phi1_pos (c : Dev nD) (n : ℕ) (h : n ≤ cfg1.N) (hz : n ≠ 0) :
    Phi1 V c n h = iprop((owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem Phi1_out (c : Dev nD) (n : ℕ) (h : n ≤ cfg1.N) : Phi1 V c n h ⊢ (Pipeline.ΦA spec1 c : sProp 𝕄) := by
  cases n with
  | zero => exact .rfl
  | succ n =>
    rw [Phi1_pos V c _ h (Nat.succ_ne_zero n), PhiA1_eq]
    iintro ⟨⟨HS, Hr⟩, Hg⟩
    isplitl [HS Hr]
    · isplitl [HS]; · iexists _; iexact HS
      iexact Hr
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := Phi1 V c t.val (Nat.le_of_lt_succ t.isLt)
  q _ := fullShare
  owed _ := 0

theorem after1_2 (c : Dev nD) (t : Fin cfg1.N) : (dat1 V c).after 2 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

/-- the body at any grid point, by the point's place in its sweep -/
theorem sound_body1 (c : Dev nD) (t : Fin cfg1.N) :
    iprop(Phi1 V c t.val (Nat.le_of_lt t.isLt) ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
      ⊢ wp frame (wpE (defs₀ (F := F)) Variants.none c none) Set.univ (bodyAt1 t) (fun _ =>
        iprop(Phi1 V c (t.val + 1) t.isLt ∗ (dat1 V c).owesAt () t.castSucc
          ∗ owns (c : Thread nD τ) (ms1_0 t) fullShare (iblk1 V c 0 t) ∗ owns (c : Thread nD τ) (ms1_1 t) fullShare (iblk1 V c 1 t)
          ∗ (dat1 V c).leavesExact 2 t)) := by
  unfold bodyAt1
  simp only [before1_0, before1_1]
  rw [Phi1]
  have hN : t.val < 7824 := lt_of_lt_of_eq t.isLt N1
  have hf := first1_iff t
  have hl := last1_iff t
  by_cases h0 : t.val % 16 = 0
  · have nl : ¬last1 (grid1.coords t) := fun h => by have := hl.mp h; omega
    rw [Dat.leavesExact_idle (dat1 V c) 2 t (idle1_2 t nl) (noFlush1_2 t nl), outsAt1_first V c t h0]
    unfold accFirst1; dsimp only
    refine (sep_mono_left (Phi1_out V c _ _)).trans ?_
    rw [PhiA1_eq]
    iintro ⟨⟨⟨HS, Hrest⟩, Hg⟩, Ho, ⟨%d0, H0⟩, ⟨%d1, H1⟩, ⟨%d2, H2⟩⟩
    iapply ((run1_first c _ _ _ _ _ _ _ _ _ (hf.mpr h0) nl (iblk1 V c 0 t) (iblk1 V c 1 t)).2 _ Set.univ _)
    iframe H0 H1 H2 HS
    iintro ⟨H0, H1, H2, HS⟩
    ihave HS := owns_pieces c scM1 _ (coverFirst1 c _ _ _ _ _ _ _ _ _ _ _ _ _) $$ HS
    iframe HS Hrest Hg Ho H0 H1
    iexists _; iexact H2
  · have hz : t.val ≠ 0 := fun h => h0 (by rw [h])
    rw [Phi1_pos V c _ _ hz]
    have nf : ¬first1 (grid1.coords t) := fun h => h0 (hf.mp h)
    by_cases h1 : t.val % 16 = 15
    · rw [show (dat1 V c).leavesExact 2 t = owns (c : Thread nD τ) (ms1_2 t) fullShare ((dat1 V c).after 2 t) from by
        unfold Dat.leavesExact; rw [live1_2 t (hl.mpr h1)], after1_2, outsAt1_last V c t h0 h1]
      unfold outLast1 accLast1; dsimp only
      iintro ⟨⟨⟨HS, Hrest⟩, Hg⟩, Ho, ⟨%d0, H0⟩, ⟨%d1, H1⟩, ⟨%d2, H2⟩⟩
      iapply ((run1_last c _ _ _ _ _ _ _ _ _ nf (hl.mpr h1) (iblk1 V c 0 t) (iblk1 V c 1 t) _).2.2 Set.univ _)
      iframe H0 H1
      isplitl [H2]; · iexists _; iexact H2
      iframe HS
      iintro ⟨H0, H1, ⟨%e2, H2⟩, HS⟩
      ihave HS := owns_pieces c scM1 _ (coverAccLast1 c _ _ _ _ _ _ _ _ _ _ _ _ _ _) $$ HS
      iframe HS Hrest Hg Ho H0 H1
      unfold owns; iexists _; isplitr
      swap; · iexact H2
      ipureintro; exact View.read_writes_of_cover _ _ _ _ _ (coverOutLast1 c _ _ _ _ _ _ _ _ _ _ _ _ _ _)
    · have nl : ¬last1 (grid1.coords t) := fun h => h1 (hl.mp h)
      rw [Dat.leavesExact_idle (dat1 V c) 2 t (idle1_2 t nl) (noFlush1_2 t nl), outsAt1_mid V c t h0 h1]
      unfold accMid1; dsimp only
      iintro ⟨⟨⟨HS, Hrest⟩, Hg⟩, Ho, ⟨%d0, H0⟩, ⟨%d1, H1⟩, ⟨%d2, H2⟩⟩
      iapply ((run1_mid c _ _ _ _ _ _ _ _ _ nf nl (iblk1 V c 0 t) (iblk1 V c 1 t) _).2 _ Set.univ _)
      iframe H0 H1 H2 HS
      iintro ⟨H0, H1, H2, HS⟩
      ihave HS := owns_pieces c scM1 _ (coverMid1 c _ _ _ _ _ _ _ _ _ _ _ _ _ _) $$ HS
      iframe HS Hrest Hg Ho H0 H1
      iexists _; iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2Run.lean ====
import proofs.«425186_j76596446757483_2_alg».proof.Proof.Gen.Kernel.Launch
import proofs.«425186_j76596446757483_2_alg».proof.Proof.Gen.Kernel.Skeleton
import proofs.«425186_j76596446757483_2_alg».proof.Proof.Gen.Kernel.Points
import proofs.«425186_j76596446757483_2_alg».proof.Proof.LibPieces
import Idealize.ShloMosaic.Lib.Pipeline.FrameSuffix
import Idealize.ShloMosaic.Lib.Ring

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

/-- the first table tile of a sweep (coordinate 0), and below the last (coordinate 15) -/
abbrev first2 (i : grid2.Coords) : Prop :=
  (Scalar.cmpi .ne (Scalar.extui (Scalar.cmpi .eq (BitVec.ofNat 32 (i 1).val) 0#32)) 0#32) = 1#1

abbrev last2 (i : grid2.Coords) : Prop := k2_cond2 i = 1#1

theorem first2_iff : ∀ t : Fin cfg2.N, first2 (grid2.coords t) ↔ t.val % 16 = 0 :=
  (by decide +kernel : ∀ t : Fin grid2.N, first2 (grid2.coords t) ↔ t.val % 16 = 0)

theorem last2_iff : ∀ t : Fin cfg2.N, last2 (grid2.coords t) ↔ t.val % 16 = 15 :=
  (by decide +kernel : ∀ t : Fin grid2.N, last2 (grid2.coords t) ↔ t.val % 16 = 15)

variable (c : Dev nD) (i : grid2.Coords)
    (arg2 : Memref sig .tc .vmem S4096x4 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- the body's run at the first table tile of a sweep: the running sums start from zero -/
def run2_first (hc0 : first2 i) (hc1 : ¬last2 i)
    (x0 : Vec F S4096x4 .i32) (x1 : Vec F S4096x16 .bf16) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc2__gather_norm_kernel i arg2 harg2 arg3 harg3 arg4 harg4 arg5 harg5) K } := by
  refine ⟨?_, fun xo E K => ?run⟩
  case run =>
    simp only [cc2__gather_norm_kernel_eq_skeleton]; unfold cc2__gather_norm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at a table tile inside a sweep: the running sums `xs` of the tile before go on -/
def run2_mid (hc0 : ¬first2 i) (hc1 : ¬last2 i)
    (x0 : Vec F S4096x4 .i32) (x1 : Vec F S4096x16 .bf16) (xs : Vec F S4096x16 .f32) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc2__gather_norm_kernel i arg2 harg2 arg3 harg3 arg4 harg4 arg5 harg5) K } := by
  refine ⟨?_, fun xo E K => ?run⟩
  case run =>
    simp only [cc2__gather_norm_kernel_eq_skeleton]; unfold cc2__gather_norm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at the last table tile: the same, and the norms are written -/
def run2_last (hc0 : ¬first2 i) (hc1 : last2 i)
    (x0 : Vec F S4096x4 .i32) (x1 : Vec F S4096x16 .bf16) (xs : Vec F S4096x16 .f32) :
    Σ' (LO : List (View.Piece (Elt F) S4096x1 .f32)), { LS : List (View.Piece (Elt F) S4096x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2__gather_norm_kernel i arg2 harg2 arg3 harg3 arg4 harg4 arg5 harg5) K } := by
  refine ⟨?_, ?_, fun E K => ?run⟩
  case run =>
    simp only [cc2__gather_norm_kernel_eq_skeleton]; unfold cc2__gather_norm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    ihave H0 := owns_unread c harg2 _ $$ H0
    ihave H1 := owns_unread c harg3 _ $$ H1
    iframe H0 H1
    isplitl [H2]
    · iexists _; iexact H2
    iexists _; iexact HS

end Cert.Kernel.Hand

end
-- ==== Proof.KB.R2Dat.lean ====
import proofs.«425186_j76596446757483_2_alg».proof.Proof.KB.R2Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms2_0 (t : Fin cfg2.N) : Memref sig .tc .vmem S4096x4 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x16 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x1 .f32 := win2_2.stage (cfg2.slots t 2)
abbrev hs2_2 (t : Fin cfg2.N) : (ms2_2 t).IsWhole := hstage2_2 ((cfg2.slots t 2).cast nbuf2_2)
abbrev scM2 : Memref sig .tc .vmem S4096x16 .f32 := Memref.whole cc2_scratch0
abbrev VS2 : View sig .tc .vmem S4096x16 .f32 := scM2.view
abbrev VO2 : View sig .tc .vmem S4096x1 .f32 := (Memref.whole cc2_stg2_0 : Memref sig .tc .vmem S4096x1 .f32).view

/-- window `w`'s block of its array at grid point `t` -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

theorem PhiA2_eq (c : Dev nD) :
    (Pipeline.ΦA spec2 c : sProp 𝕄)
      = iprop(((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list (win := spec2) (c := c) [cc2_scratch0] (by decide) (by decide)]
  rw [bigSepL_singleton]
  simp only [scM2, owns_whole]; try rfl

section Pieces
variable (c : Dev nD) (i : grid2.Coords)
    (arg2 : Memref sig .tc .vmem S4096x4 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- what each control case leaves of the running sums (at the last table tile also the norms) -/
def accFirst2 (hc0 : first2 i) (hc1 : ¬last2 i) (x0 : Vec F S4096x4 .i32) (x1 : Vec F S4096x16 .bf16) : Vec F S4096x16 .f32 :=
  VS2.read (Elt F) (VS2.writes (Elt F) VS2.junk (run2_first c i arg2 harg2 arg3 harg3 arg4 harg4 arg5 harg5 hc0 hc1 x0 x1).1)

theorem coverFirst2 (hc0 : first2 i) (hc1 : ¬last2 i) (x0 : Vec F S4096x4 .i32) (x1 : Vec F S4096x16 .bf16) (y : S4096x16.Idx) :
    ∃ pc ∈ (run2_first c i arg2 harg2 arg3 harg3 arg4 harg4 arg5 harg5 hc0 hc1 x0 x1).1, y ∈ pc.1.set :=
  View.cover_of_tiledL _ S4096x16.size (by sl_kernel_rfl) y

def accMid2 (hc0 : ¬first2 i) (hc1 : ¬last2 i) (x0 : Vec F S4096x4 .i32) (x1 : Vec F S4096x16 .bf16) (xs : Vec F S4096x16 .f32) : Vec F S4096x16 .f32 :=
  VS2.read (Elt F) (VS2.writes (Elt F) VS2.junk (run2_mid c i arg2 harg2 arg3 harg3 arg4 harg4 arg5 harg5 hc0 hc1 x0 x1 xs).1)

theorem coverMid2 (hc0 : ¬first2 i) (hc1 : ¬last2 i) (x0 : Vec F S4096x4 .i32) (x1 : Vec F S4096x16 .bf16) (xs : Vec F S4096x16 .f32) (y : S4096x16.Idx) :
    ∃ pc ∈ (run2_mid c i arg2 harg2 arg3 harg3 arg4 harg4 arg5 harg5 hc0 hc1 x0 x1 xs).1, y ∈ pc.1.set :=
  View.cover_of_tiledL _ S4096x16.size (by sl_kernel_rfl) y

def accLast2 (hc0 : ¬first2 i) (hc1 : last2 i) (x0 : Vec F S4096x4 .i32) (x1 : Vec F S4096x16 .bf16) (xs : Vec F S4096x16 .f32) : Vec F S4096x16 .f32 :=
  VS2.read (Elt F) (VS2.writes (Elt F) VS2.junk (run2_last c i arg2 harg2 arg3 harg3 arg4 harg4 arg5 harg5 hc0 hc1 x0 x1 xs).2.1)

theorem coverAccLast2 (hc0 : ¬first2 i) (hc1 : last2 i) (x0 : Vec F S4096x4 .i32) (x1 : Vec F S4096x16 .bf16) (xs : Vec F S4096x16 .f32) (y : S4096x16.Idx) :
    ∃ pc ∈ (run2_last c i arg2 harg2 arg3 harg3 arg4 harg4 arg5 harg5 hc0 hc1 x0 x1 xs).2.1, y ∈ pc.1.set :=
  View.cover_of_tiledL _ S4096x16.size (by sl_kernel_rfl) y

def outLast2 (hc0 : ¬first2 i) (hc1 : last2 i) (x0 : Vec F S4096x4 .i32) (x1 : Vec F S4096x16 .bf16) (xs : Vec F S4096x16 .f32) : Vec F S4096x1 .f32 :=
  VO2.read (Elt F) (VO2.writes (Elt F) VO2.junk (run2_last c i arg2 harg2 arg3 harg3 arg4 harg4 arg5 harg5 hc0 hc1 x0 x1 xs).1)

theorem coverOutLast2 (hc0 : ¬first2 i) (hc1 : last2 i) (x0 : Vec F S4096x4 .i32) (x1 : Vec F S4096x16 .bf16) (xs : Vec F S4096x16 .f32) (y : S4096x1.Idx) :
    ∃ pc ∈ (run2_last c i arg2 harg2 arg3 harg3 arg4 harg4 arg5 harg5 hc0 hc1 x0 x1 xs).1, y ∈ pc.1.set :=
  View.cover_of_tiledL _ S4096x1.size (by sl_kernel_rfl) y

end Pieces

theorem N2 : cfg2.N = 7824 := N_2

/-- what grid point `t` makes of the running sums the point before left, by its place in the sweep (first component: the norms, written at a sweep's end only) -/
def step2 (c : Dev nD) (t : Fin cfg2.N) (prev : Vec F S4096x16 .f32) : Vec F S4096x1 .f32 × Vec F S4096x16 .f32 :=
  if h0 : t.val % 16 = 0 then (VO2.read (Elt F) VO2.junk, accFirst2 c (grid2.coords t) (ms2_0 t) (hs2_0 t) (ms2_1 t) (hs2_1 t) (ms2_2 t) (hs2_2 t) scM2 (Memref.isWhole_whole _) ((first2_iff t).mpr h0) (fun h => by have := (last2_iff t).mp h; omega) (iblk2 V c 0 t) (iblk2 V c 1 t))
  else if h1 : t.val % 16 = 15 then (outLast2 c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) prev, accLast2 c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) prev)
  else (VO2.read (Elt F) VO2.junk, accMid2 c (grid2.coords t) (ms2_0 t) (hs2_0 t) (ms2_1 t) (hs2_1 t) (ms2_2 t) (hs2_2 t) scM2 (Memref.isWhole_whole _) (fun h => h0 ((first2_iff t).mp h)) (fun h => h1 ((last2_iff t).mp h)) (iblk2 V c 0 t) (iblk2 V c 1 t) prev)

def outsAt2 (c : Dev nD) : (n : ℕ) → n < cfg2.N → Vec F S4096x1 .f32 × Vec F S4096x16 .f32
  | 0, hn => step2 V c ⟨0, hn⟩ (VS2.read (Elt F) VS2.junk)
  | n + 1, hn => step2 V c ⟨n + 1, hn⟩ (outsAt2 c n (Nat.lt_of_succ_lt hn)).2

theorem outsAt2_succ (c : Dev nD) (t : Fin cfg2.N) (h0 : ¬t.val % 16 = 0) :
    outsAt2 V c t.val t.isLt = step2 V c t (outsAt2 V c (t.val - 1) (Nat.lt_of_le_of_lt (Nat.sub_le _ _) t.isLt)).2 := by
  obtain ⟨n, hn⟩ := t
  cases n with
  | zero => exact absurd (Nat.zero_mod _) h0
  | succ n => rfl

/-- a sweep's first point does not look at what came before -/
theorem outsAt2_first (c : Dev nD) (t : Fin cfg2.N) (h0 : t.val % 16 = 0) :
    outsAt2 V c t.val t.isLt = (VO2.read (Elt F) VO2.junk, accFirst2 c (grid2.coords t) (ms2_0 t) (hs2_0 t) (ms2_1 t) (hs2_1 t) (ms2_2 t) (hs2_2 t) scM2 (Memref.isWhole_whole _) ((first2_iff t).mpr h0) (fun h => by have := (last2_iff t).mp h; omega) (iblk2 V c 0 t) (iblk2 V c 1 t)) := by
  obtain ⟨n, hn⟩ := t
  cases n <;> (unfold outsAt2 step2; exact dif_pos h0)

theorem outsAt2_mid (c : Dev nD) (t : Fin cfg2.N) (h0 : ¬t.val % 16 = 0) (h1 : ¬t.val % 16 = 15) :
    outsAt2 V c t.val t.isLt = (VO2.read (Elt F) VO2.junk, accMid2 c (grid2.coords t) (ms2_0 t) (hs2_0 t) (ms2_1 t) (hs2_1 t) (ms2_2 t) (hs2_2 t) scM2 (Memref.isWhole_whole _) (fun h => h0 ((first2_iff t).mp h)) (fun h => h1 ((last2_iff t).mp h)) (iblk2 V c 0 t) (iblk2 V c 1 t) (outsAt2 V c (t.val - 1) (Nat.lt_of_le_of_lt (Nat.sub_le _ _) t.isLt)).2) := by
  rw [outsAt2_succ V c t h0]; unfold step2; rw [dif_neg h0, dif_neg h1]

theorem outsAt2_last (c : Dev nD) (t : Fin cfg2.N) (h0 : ¬t.val % 16 = 0) (h1 : t.val % 16 = 15) :
    outsAt2 V c t.val t.isLt = (outLast2 c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) (outsAt2 V c (t.val - 1) (Nat.lt_of_le_of_lt (Nat.sub_le _ _) t.isLt)).2, accLast2 c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) (outsAt2 V c (t.val - 1) (Nat.lt_of_le_of_lt (Nat.sub_le _ _) t.isLt)).2) := by
  rw [outsAt2_succ V c t h0]; unfold step2; rw [dif_neg h0, dif_pos h1]

def Phi2 (c : Dev nD) : (n : ℕ) → n ≤ cfg2.N → sProp 𝕄
  | 0, _ => Pipeline.ΦA spec2 c
  | n + 1, hn => iprop((owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem Phi2_pos (c : Dev nD) (n : ℕ) (h : n ≤ cfg2.N) (hz : n ≠ 0) :
    Phi2 V c n h = iprop((owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

theorem Phi2_out (c : Dev nD) (n : ℕ) (h : n ≤ cfg2.N) : Phi2 V c n h ⊢ (Pipeline.ΦA spec2 c : sProp 𝕄) := by
  cases n with
  | zero => exact .rfl
  | succ n =>
    rw [Phi2_pos V c _ h (Nat.succ_ne_zero n), PhiA2_eq]
    iintro ⟨⟨HS, Hr⟩, Hg⟩
    isplitl [HS Hr]
    · isplitl [HS]; · iexists _; iexact HS
      iexact Hr
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := Phi2 V c t.val (Nat.le_of_lt_succ t.isLt)
  q _ := fullShare
  owed _ := 0

theorem after2_2 (c : Dev nD) (t : Fin cfg2.N) : (dat2 V c).after 2 t = (outsAt2 V c t.val t.isLt).1 := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

/-- the body at any grid point, by the point's place in its sweep -/
theorem sound_body2 (c : Dev nD) (t : Fin cfg2.N) :
    iprop(Phi2 V c t.val (Nat.le_of_lt t.isLt) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
      ⊢ wp frame (wpE (defs₀ (F := F)) Variants.none c none) Set.univ (bodyAt2 t) (fun _ =>
        iprop(Phi2 V c (t.val + 1) t.isLt ∗ (dat2 V c).owesAt () t.castSucc
          ∗ owns (c : Thread nD τ) (ms2_0 t) fullShare (iblk2 V c 0 t) ∗ owns (c : Thread nD τ) (ms2_1 t) fullShare (iblk2 V c 1 t)
          ∗ (dat2 V c).leavesExact 2 t)) := by
  unfold bodyAt2
  simp only [before2_0, before2_1]
  rw [Phi2]
  have hN : t.val < 7824 := lt_of_lt_of_eq t.isLt N2
  have hf := first2_iff t
  have hl := last2_iff t
  by_cases h0 : t.val % 16 = 0
  · have nl : ¬last2 (grid2.coords t) := fun h => by have := hl.mp h; omega
    rw [Dat.leavesExact_idle (dat2 V c) 2 t (idle2_2 t nl) (noFlush2_2 t nl), outsAt2_first V c t h0]
    unfold accFirst2; dsimp only
    refine (sep_mono_left (Phi2_out V c _ _)).trans ?_
    rw [PhiA2_eq]
    iintro ⟨⟨⟨HS, Hrest⟩, Hg⟩, Ho, ⟨%d0, H0⟩, ⟨%d1, H1⟩, ⟨%d2, H2⟩⟩
    iapply ((run2_first c _ _ _ _ _ _ _ _ _ (hf.mpr h0) nl (iblk2 V c 0 t) (iblk2 V c 1 t)).2 _ Set.univ _)
    iframe H0 H1 H2 HS
    iintro ⟨H0, H1, H2, HS⟩
    ihave HS := owns_pieces c scM2 _ (coverFirst2 c _ _ _ _ _ _ _ _ _ _ _ _ _) $$ HS
    iframe HS Hrest Hg Ho H0 H1
    iexists _; iexact H2
  · have hz : t.val ≠ 0 := fun h => h0 (by rw [h])
    rw [Phi2_pos V c _ _ hz]
    have nf : ¬first2 (grid2.coords t) := fun h => h0 (hf.mp h)
    by_cases h1 : t.val % 16 = 15
    · rw [show (dat2 V c).leavesExact 2 t = owns (c : Thread nD τ) (ms2_2 t) fullShare ((dat2 V c).after 2 t) from by
        unfold Dat.leavesExact; rw [live2_2 t (hl.mpr h1)], after2_2, outsAt2_last V c t h0 h1]
      unfold outLast2 accLast2; dsimp only
      iintro ⟨⟨⟨HS, Hrest⟩, Hg⟩, Ho, ⟨%d0, H0⟩, ⟨%d1, H1⟩, ⟨%d2, H2⟩⟩
      iapply ((run2_last c _ _ _ _ _ _ _ _ _ nf (hl.mpr h1) (iblk2 V c 0 t) (iblk2 V c 1 t) _).2.2 Set.univ _)
      iframe H0 H1
      isplitl [H2]; · iexists _; iexact H2
      iframe HS
      iintro ⟨H0, H1, ⟨%e2, H2⟩, HS⟩
      ihave HS := owns_pieces c scM2 _ (coverAccLast2 c _ _ _ _ _ _ _ _ _ _ _ _ _ _) $$ HS
      iframe HS Hrest Hg Ho H0 H1
      unfold owns; iexists _; isplitr
      swap; · iexact H2
      ipureintro; exact View.read_writes_of_cover _ _ _ _ _ (coverOutLast2 c _ _ _ _ _ _ _ _ _ _ _ _ _ _)
    · have nl : ¬last2 (grid2.coords t) := fun h => h1 (hl.mp h)
      rw [Dat.leavesExact_idle (dat2 V c) 2 t (idle2_2 t nl) (noFlush2_2 t nl), outsAt2_mid V c t h0 h1]
      unfold accMid2; dsimp only
      iintro ⟨⟨⟨HS, Hrest⟩, Hg⟩, Ho, ⟨%d0, H0⟩, ⟨%d1, H1⟩, ⟨%d2, H2⟩⟩
      iapply ((run2_mid c _ _ _ _ _ _ _ _ _ nf nl (iblk2 V c 0 t) (iblk2 V c 1 t) _).2 _ Set.univ _)
      iframe H0 H1 H2 HS
      iintro ⟨H0, H1, H2, HS⟩
      ihave HS := owns_pieces c scM2 _ (coverMid2 c _ _ _ _ _ _ _ _ _ _ _ _ _ _) $$ HS
      iframe HS Hrest Hg Ho H0 H1
      iexists _; iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Launch.lean ====
import proofs.«425186_j76596446757483_2_alg».proof.Proof.KB.R0Dat
import proofs.«425186_j76596446757483_2_alg».proof.Proof.KB.R1Dat
import proofs.«425186_j76596446757483_2_alg».proof.Proof.KB.R2Dat
import proofs.«425186_j76596446757483_2_alg».proof.Proof.Gen.Kernel.Regions
import Idealize.ShloMosaic.Lib.Pipeline.RegionsLoop

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev vr (W : Dev nD → Valuation τ sig (Elt F)) : (c : Dev nD) → (b : Ref sig .tc) → Buf (Elt F) ((c : Thread nD τ).loc b) :=
  fun c b => W c b

def o5 (c : Dev nD) : Buf (Elt F) ((c : Thread nD τ).loc main_v7) := (dat0 (vr (V4 m)) c).arrAt 2 cfg0.N

def X5 (c : Dev nD) : Valuation τ sig (Elt F) := Function.update (V4 m c) main_v7 (o5 m c)

def X6 (c : Dev nD) : Valuation τ sig (Elt F) := StableHlo.after hostOps1 (X5 m c)

def o7 (c : Dev nD) : Buf (Elt F) ((c : Thread nD τ).loc main_v10) := (dat1 (vr (X6 m)) c).arrAt 2 cfg1.N

def X7 (c : Dev nD) : Valuation τ sig (Elt F) := Function.update (X6 m c) main_v10 (o7 m c)

def X8 (c : Dev nD) : Valuation τ sig (Elt F) := StableHlo.after hostOps2 (X7 m c)

def o9 (c : Dev nD) : Buf (Elt F) ((c : Thread nD τ).loc main_v13) := (dat2 (vr (X8 m)) c).arrAt 2 cfg2.N

def X9 (c : Dev nD) : Valuation τ sig (Elt F) := Function.update (X8 m c) main_v13 (o9 m c)

def outs : Outs (F := F) := fun J r c => if J = 5 then X5 m c r else if J = 7 then X7 m c r else X9 m c r

theorem outs5 (c : Dev nD) : outs m 5 main_v7 c = o5 m c := by
  unfold outs X5; rw [if_pos rfl]; exact Function.update_self _ _ _

theorem outs7 (c : Dev nD) : outs m 7 main_v10 c = o7 m c := by
  unfold outs X7; rw [if_neg (by decide), if_pos rfl]; exact Function.update_self _ _ _

theorem outs9 (c : Dev nD) : outs m 9 main_v13 c = o9 m c := by
  unfold outs X9; rw [if_neg (by decide), if_neg (by decide)]; exact Function.update_self _ _ _

theorem V5_eq (c : Dev nD) : V5 m (outs m) c = X5 m c := by
  show Function.update (V4 m c) main_v7 (outs m 5 main_v7 c) = _
  rw [outs5]; rfl

theorem V6_eq (c : Dev nD) : V6 m (outs m) c = X6 m c := by
  show StableHlo.after hostOps1 (V5 m (outs m) c) = _
  rw [V5_eq]; rfl

theorem V7_eq (c : Dev nD) : V7 m (outs m) c = X7 m c := by
  show Function.update (V6 m (outs m) c) main_v10 (outs m 7 main_v10 c) = _
  rw [V6_eq, outs7]; rfl

theorem V8_eq (c : Dev nD) : V8 m (outs m) c = X8 m c := by
  show StableHlo.after hostOps2 (V7 m (outs m) c) = _
  rw [V7_eq]; rfl

theorem V9_eq (c : Dev nD) : V9 m (outs m) c = X9 m c := by
  show Function.update (V8 m (outs m) c) main_v13 (outs m 9 main_v13 c) = _
  rw [V8_eq, outs9]; rfl

def pdats : (p : Fin 3) → (c : Dev nD) → Dat τ (Elt F) Unit ℕ (UR sig nD τ) ℕ (Pipeline.pin (pcfgs (F := F)) adm p) c
  | ⟨0, _⟩ => fun c => dat0 (vr (V4 m)) c
  | ⟨1, _⟩ => fun c => dat1 (vr (X6 m)) c
  | ⟨2, _⟩ => fun c => dat2 (vr (X8 m)) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = vr (X5 m) c (Pipeline.arrRef spec0 w) :=
  match w with
  | ⟨0, _⟩ => ((pdats m 0 c).arrAt_in 0 rfl _).trans (by
    show vr (V4 m) c (Pipeline.arrRef spec0 0) = _
    unfold X5 vr
    exact (Function.update_of_ne (StableHlo.devRef_ne_of_ne (by decide)) _ _).symm)
  | ⟨1, _⟩ => ((pdats m 0 c).arrAt_in 1 rfl _).trans (by
    show vr (V4 m) c (Pipeline.arrRef spec0 1) = _
    unfold X5 vr
    exact (Function.update_of_ne (StableHlo.devRef_ne_of_ne (by decide)) _ _).symm)
  | ⟨2, _⟩ => by
    show (dat0 (vr (V4 m)) c).arrAt 2 cfg0.N = Function.update (V4 m c) (Proc.devRef .tc main_v7) (o5 m c) (Proc.devRef .tc main_v7)
    rw [Function.update_self]; rfl

theorem hrest0 (c : Dev nD) : ∀ b, b ∉ Finset.univ.image (Pipeline.arrRef spec0) → vr (X5 m) c b = vr (V4 m) c b := by
  intro b hb
  unfold X5 vr
  exact Function.update_of_ne (StableHlo.devRef_ne_of_ne fun e => hb (Finset.mem_image.mpr ⟨2, Finset.mem_univ _, e.symm⟩)) _ _

theorem hF1 (c : Dev nD) (w : Fin cfg1.W) : (pdats m 1 c).arrAt w cfg1.N = vr (X7 m) c (Pipeline.arrRef spec1 w) :=
  match w with
  | ⟨0, _⟩ => ((pdats m 1 c).arrAt_in 0 rfl _).trans (by
    show vr (X6 m) c (Pipeline.arrRef spec1 0) = _
    unfold X7 vr
    exact (Function.update_of_ne (StableHlo.devRef_ne_of_ne (by decide)) _ _).symm)
  | ⟨1, _⟩ => ((pdats m 1 c).arrAt_in 1 rfl _).trans (by
    show vr (X6 m) c (Pipeline.arrRef spec1 1) = _
    unfold X7 vr
    exact (Function.update_of_ne (StableHlo.devRef_ne_of_ne (by decide)) _ _).symm)
  | ⟨2, _⟩ => by
    show (dat1 (vr (X6 m)) c).arrAt 2 cfg1.N = Function.update (X6 m c) (Proc.devRef .tc main_v10) (o7 m c) (Proc.devRef .tc main_v10)
    rw [Function.update_self]; rfl

theorem hrest1 (c : Dev nD) : ∀ b, b ∉ Finset.univ.image (Pipeline.arrRef spec1) → vr (X7 m) c b = vr (X6 m) c b := by
  intro b hb
  unfold X7 vr
  exact Function.update_of_ne (StableHlo.devRef_ne_of_ne fun e => hb (Finset.mem_image.mpr ⟨2, Finset.mem_univ _, e.symm⟩)) _ _

theorem hF2 (c : Dev nD) (w : Fin cfg2.W) : (pdats m 2 c).arrAt w cfg2.N = vr (X9 m) c (Pipeline.arrRef spec2 w) :=
  match w with
  | ⟨0, _⟩ => ((pdats m 2 c).arrAt_in 0 rfl _).trans (by
    show vr (X8 m) c (Pipeline.arrRef spec2 0) = _
    unfold X9 vr
    exact (Function.update_of_ne (StableHlo.devRef_ne_of_ne (by decide)) _ _).symm)
  | ⟨1, _⟩ => ((pdats m 2 c).arrAt_in 1 rfl _).trans (by
    show vr (X8 m) c (Pipeline.arrRef spec2 1) = _
    unfold X9 vr
    exact (Function.update_of_ne (StableHlo.devRef_ne_of_ne (by decide)) _ _).symm)
  | ⟨2, _⟩ => by
    show (dat2 (vr (X8 m)) c).arrAt 2 cfg2.N = Function.update (X8 m c) (Proc.devRef .tc main_v13) (o9 m c) (Proc.devRef .tc main_v13)
    rw [Function.update_self]; rfl

theorem hrest2 (c : Dev nD) : ∀ b, b ∉ Finset.univ.image (Pipeline.arrRef spec2) → vr (X9 m) c b = vr (X8 m) c b := by
  intro b hb
  unfold X9 vr
  exact Function.update_of_ne (StableHlo.devRef_ne_of_ne fun e => hb (Finset.mem_image.mpr ⟨2, Finset.mem_univ _, e.symm⟩)) _ _

set_option backward.isDefEq.respectTransparency.types false in
/-- one segment construction for the three regions: they differ only in the pipeline's number, the valuation entered and the valuation left -/
def regOf (p : Fin 3) (lf : Pipeline.LaunchFacts (nD := nD) (τ := τ) cfgs p) (Vin Vout : Dev nD → Valuation τ sig (Elt F))
    (hb : ∀ c, BodyObligation (pdats m p c) (defs₀ (F := F)) 𝒱₀ () Set.univ)
    (hq : ∀ c w, (pdats m p c).q w = fullShare) (howed : ∀ c t, (pdats m p c).owed t = 0)
    (hrec : ∀ c, (pdats m p c).recorded 0 = Set.univ)
    (hA : ∀ c w, (pdats m p c).A w = vr Vin c (Pipeline.arrRef (cfgs p).spec w))
    (hΦ0 : ∀ c, (pdats m p c).Φ 0 = Pipeline.ΦA (cfgs p).spec c)
    (hΦN : ∀ c, (pdats m p c).Φ (Fin.last _) ⊢ (Pipeline.ΦA (cfgs p).spec c : sProp 𝕄))
    (hF : ∀ c w, (pdats m p c).arrAt w (cfgs p).N = vr Vout c (Pipeline.arrRef (cfgs p).spec w))
    (hrest : ∀ c b, b ∉ Finset.univ.image (Pipeline.arrRef (cfgs p).spec) → vr Vout c b = vr Vin c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (vr Vin c)
  hentry c := by
    rw [Pipeline.ownSems0_none]
    have hsplit := Pipeline.arrays_of_unscopedBufs (p := p) (pcfgs (F := F)) adm (pdats m) lf.win lf.arr_whole c
      ((pdats m p c).share_full (hq c)) (vr Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (vr Vin c) (vr Vout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.Kernel.Hand

end
-- ==== Proof.KB.Main.lean ====
import proofs.«425186_j76596446757483_2_alg».proof.Proof.KB.Launch

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (regOf m 0 launch0 (V4 m) (X5 m) (body_obligation0 (vr (V4 m))) (fun _ _ => rfl) (fun _ _ => rfl) (fun _ => rfl) (fun _ _ => rfl) (fun _ => rfl)
      (fun c => Phi0_out (vr (V4 m)) c cfg0.N (le_refl _)) (hF0 m) (hrest0 m)) (fun c => .rfl) (fun c => by rw [V5_eq]; exact .rfl)
    (regOf m 1 launch1 (X6 m) (X7 m) (body_obligation1 (vr (X6 m))) (fun _ _ => rfl) (fun _ _ => rfl) (fun _ => rfl) (fun _ _ => rfl) (fun _ => rfl)
      (fun c => Phi1_out (vr (X6 m)) c cfg1.N (le_refl _)) (hF1 m) (hrest1 m)) (fun c => by rw [V6_eq]; exact .rfl) (fun c => by rw [V7_eq]; exact .rfl)
    (regOf m 2 launch2 (X8 m) (X9 m) (body_obligation2 (vr (X8 m))) (fun _ _ => rfl) (fun _ _ => rfl) (fun _ => rfl) (fun _ _ => rfl) (fun _ => rfl)
      (fun c => Phi2_out (vr (X8 m)) c cfg2.N (le_refl _)) (hF2 m) (hrest2 m)) (fun c => by rw [V8_eq]; exact .rfl) (fun c => by rw [V9_eq]; exact .rfl)

end Cert.Kernel.Hand

end
-- ==== Proof.KI.R0Run.lean ====
import proofs.«425186_j76596446757483_2_alg».proof.Proof.Gen.KernelIdeal.Launch
import proofs.«425186_j76596446757483_2_alg».proof.Proof.Gen.KernelIdeal.Skeleton
import proofs.«425186_j76596446757483_2_alg».proof.Proof.Gen.KernelIdeal.Points
import proofs.«425186_j76596446757483_2_alg».proof.Proof.LibPieces
import Idealize.ShloMosaic.Lib.Pipeline.FrameSuffix
import Idealize.ShloMosaic.Lib.Ring

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

/-- the first table tile of a sweep (coordinate 0), and below the last (coordinate 15) -/
abbrev first0 (i : grid0.Coords) : Prop :=
  (Scalar.cmpi .ne (Scalar.extui (Scalar.cmpi .eq (BitVec.ofNat 32 (i 1).val) 0#32)) 0#32) = 1#1

abbrev last0 (i : grid0.Coords) : Prop := k0_cond2 i = 1#1

theorem first0_iff : ∀ t : Fin cfg0.N, first0 (grid0.coords t) ↔ t.val % 16 = 0 :=
  (by decide +kernel : ∀ t : Fin grid0.N, first0 (grid0.coords t) ↔ t.val % 16 = 0)

theorem last0_iff : ∀ t : Fin cfg0.N, last0 (grid0.coords t) ↔ t.val % 16 = 15 :=
  (by decide +kernel : ∀ t : Fin grid0.N, last0 (grid0.coords t) ↔ t.val % 16 = 15)

variable (c : Dev nD) (i : grid0.Coords)
    (arg2 : Memref sig .tc .vmem S4096x2 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- the body's run at the first table tile of a sweep: the running sums start from zero -/
def run0_first (hc0 : first0 i) (hc1 : ¬last0 i)
    (x0 : Vec F S4096x2 .i32) (x1 : Vec F S4096x16 .bf16) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_norm_kernel i arg2 harg2 arg3 harg3 arg4 harg4 arg5 harg5) K } := by
  refine ⟨?_, fun xo E K => ?run⟩
  case run =>
    simp only [cc0__gather_norm_kernel_eq_skeleton]; unfold cc0__gather_norm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at a table tile inside a sweep: the running sums `xs` of the tile before go on -/
def run0_mid (hc0 : ¬first0 i) (hc1 : ¬last0 i)
    (x0 : Vec F S4096x2 .i32) (x1 : Vec F S4096x16 .bf16) (xs : Vec F S4096x16 .f32) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_norm_kernel i arg2 harg2 arg3 harg3 arg4 harg4 arg5 harg5) K } := by
  refine ⟨?_, fun xo E K => ?run⟩
  case run =>
    simp only [cc0__gather_norm_kernel_eq_skeleton]; unfold cc0__gather_norm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at the last table tile: the same, and the norms are written -/
def run0_last (hc0 : ¬first0 i) (hc1 : last0 i)
    (x0 : Vec F S4096x2 .i32) (x1 : Vec F S4096x16 .bf16) (xs : Vec F S4096x16 .f32) :
    Σ' (LO : List (View.Piece (Elt F) S4096x1 .f32)), { LS : List (View.Piece (Elt F) S4096x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_norm_kernel i arg2 harg2 arg3 harg3 arg4 harg4 arg5 harg5) K } := by
  refine ⟨?_, ?_, fun E K => ?run⟩
  case run =>
    simp only [cc0__gather_norm_kernel_eq_skeleton]; unfold cc0__gather_norm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    ihave H0 := owns_unread c harg2 _ $$ H0
    ihave H1 := owns_unread c harg3 _ $$ H1
    iframe H0 H1
    isplitl [H2]
    · iexists _; iexact H2
    iexists _; iexact HS

end Cert.KernelIdeal.Hand

end
-- ==== Proof.KI.R0Dat.lean ====
import proofs.«425186_j76596446757483_2_alg».proof.Proof.KI.R0Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms0_0 (t : Fin cfg0.N) : Memref sig .tc .vmem S4096x2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .f32 := win0_2.stage (cfg0.slots t 2)
abbrev hs0_2 (t : Fin cfg0.N) : (ms0_2 t).IsWhole := hstage0_2 ((cfg0.slots t 2).cast nbuf0_2)
abbrev scM0 : Memref sig .tc .vmem S4096x16 .f32 := Memref.whole cc0_scratch0
abbrev VS0 : View sig .tc .vmem S4096x16 .f32 := scM0.view
abbrev VO0 : View sig .tc .vmem S4096x1 .f32 := (Memref.whole cc0_stg2_0 : Memref sig .tc .vmem S4096x1 .f32).view

/-- window `w`'s block of its array at grid point `t` -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

theorem PhiA0_eq (c : Dev nD) :
    (Pipeline.ΦA spec0 c : sProp 𝕄)
      = iprop(((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list (win := spec0) (c := c) [cc0_scratch0] (by decide) (by decide)]
  rw [bigSepL_singleton]
  simp only [scM0, owns_whole]; try rfl

section Pieces
variable (c : Dev nD) (i : grid0.Coords)
    (arg2 : Memref sig .tc .vmem S4096x2 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- what each control case leaves of the running sums (at the last table tile also the norms) -/
def accFirst0 (hc0 : first0 i) (hc1 : ¬last0 i) (x0 : Vec F S4096x2 .i32) (x1 : Vec F S4096x16 .bf16) : Vec F S4096x16 .f32 :=
  VS0.read (Elt F) (VS0.writes (Elt F) VS0.junk (run0_first c i arg2 harg2 arg3 harg3 arg4 harg4 arg5 harg5 hc0 hc1 x0 x1).1)

theorem coverFirst0 (hc0 : first0 i) (hc1 : ¬last0 i) (x0 : Vec F S4096x2 .i32) (x1 : Vec F S4096x16 .bf16) (y : S4096x16.Idx) :
    ∃ pc ∈ (run0_first c i arg2 harg2 arg3 harg3 arg4 harg4 arg5 harg5 hc0 hc1 x0 x1).1, y ∈ pc.1.set :=
  View.cover_of_tiledL _ S4096x16.size (by sl_kernel_rfl) y

def accMid0 (hc0 : ¬first0 i) (hc1 : ¬last0 i) (x0 : Vec F S4096x2 .i32) (x1 : Vec F S4096x16 .bf16) (xs : Vec F S4096x16 .f32) : Vec F S4096x16 .f32 :=
  VS0.read (Elt F) (VS0.writes (Elt F) VS0.junk (run0_mid c i arg2 harg2 arg3 harg3 arg4 harg4 arg5 harg5 hc0 hc1 x0 x1 xs).1)

theorem coverMid0 (hc0 : ¬first0 i) (hc1 : ¬last0 i) (x0 : Vec F S4096x2 .i32) (x1 : Vec F S4096x16 .bf16) (xs : Vec F S4096x16 .f32) (y : S4096x16.Idx) :
    ∃ pc ∈ (run0_mid c i arg2 harg2 arg3 harg3 arg4 harg4 arg5 harg5 hc0 hc1 x0 x1 xs).1, y ∈ pc.1.set :=
  View.cover_of_tiledL _ S4096x16.size (by sl_kernel_rfl) y

def accLast0 (hc0 : ¬first0 i) (hc1 : last0 i) (x0 : Vec F S4096x2 .i32) (x1 : Vec F S4096x16 .bf16) (xs : Vec F S4096x16 .f32) : Vec F S4096x16 .f32 :=
  VS0.read (Elt F) (VS0.writes (Elt F) VS0.junk (run0_last c i arg2 harg2 arg3 harg3 arg4 harg4 arg5 harg5 hc0 hc1 x0 x1 xs).2.1)

theorem coverAccLast0 (hc0 : ¬first0 i) (hc1 : last0 i) (x0 : Vec F S4096x2 .i32) (x1 : Vec F S4096x16 .bf16) (xs : Vec F S4096x16 .f32) (y : S4096x16.Idx) :
    ∃ pc ∈ (run0_last c i arg2 harg2 arg3 harg3 arg4 harg4 arg5 harg5 hc0 hc1 x0 x1 xs).2.1, y ∈ pc.1.set :=
  View.cover_of_tiledL _ S4096x16.size (by sl_kernel_rfl) y

def outLast0 (hc0 : ¬first0 i) (hc1 : last0 i) (x0 : Vec F S4096x2 .i32) (x1 : Vec F S4096x16 .bf16) (xs : Vec F S4096x16 .f32) : Vec F S4096x1 .f32 :=
  VO0.read (Elt F) (VO0.writes (Elt F) VO0.junk (run0_last c i arg2 harg2 arg3 harg3 arg4 harg4 arg5 harg5 hc0 hc1 x0 x1 xs).1)

theorem coverOutLast0 (hc0 : ¬first0 i) (hc1 : last0 i) (x0 : Vec F S4096x2 .i32) (x1 : Vec F S4096x16 .bf16) (xs : Vec F S4096x16 .f32) (y : S4096x1.Idx) :
    ∃ pc ∈ (run0_last c i arg2 harg2 arg3 harg3 arg4 harg4 arg5 harg5 hc0 hc1 x0 x1 xs).1, y ∈ pc.1.set :=
  View.cover_of_tiledL _ S4096x1.size (by sl_kernel_rfl) y

end Pieces

theorem N0 : cfg0.N = 256 := N_0

/-- what grid point `t` makes of the running sums the point before left, by its place in the sweep (first component: the norms, written at a sweep's end only) -/
def step0 (c : Dev nD) (t : Fin cfg0.N) (prev : Vec F S4096x16 .f32) : Vec F S4096x1 .f32 × Vec F S4096x16 .f32 :=
  if h0 : t.val % 16 = 0 then (VO0.read (Elt F) VO0.junk, accFirst0 c (grid0.coords t) (ms0_0 t) (hs0_0 t) (ms0_1 t) (hs0_1 t) (ms0_2 t) (hs0_2 t) scM0 (Memref.isWhole_whole _) ((first0_iff t).mpr h0) (fun h => by have := (last0_iff t).mp h; omega) (iblk0 V c 0 t) (iblk0 V c 1 t))
  else if h1 : t.val % 16 = 15 then (outLast0 c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) prev, accLast0 c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) prev)
  else (VO0.read (Elt F) VO0.junk, accMid0 c (grid0.coords t) (ms0_0 t) (hs0_0 t) (ms0_1 t) (hs0_1 t) (ms0_2 t) (hs0_2 t) scM0 (Memref.isWhole_whole _) (fun h => h0 ((first0_iff t).mp h)) (fun h => h1 ((last0_iff t).mp h)) (iblk0 V c 0 t) (iblk0 V c 1 t) prev)

def outsAt0 (c : Dev nD) : (n : ℕ) → n < cfg0.N → Vec F S4096x1 .f32 × Vec F S4096x16 .f32
  | 0, hn => step0 V c ⟨0, hn⟩ (VS0.read (Elt F) VS0.junk)
  | n + 1, hn => step0 V c ⟨n + 1, hn⟩ (outsAt0 c n (Nat.lt_of_succ_lt hn)).2

theorem outsAt0_succ (c : Dev nD) (t : Fin cfg0.N) (h0 : ¬t.val % 16 = 0) :
    outsAt0 V c t.val t.isLt = step0 V c t (outsAt0 V c (t.val - 1) (Nat.lt_of_le_of_lt (Nat.sub_le _ _) t.isLt)).2 := by
  obtain ⟨n, hn⟩ := t
  cases n with
  | zero => exact absurd (Nat.zero_mod _) h0
  | succ n => rfl

/-- a sweep's first point does not look at what came before -/
theorem outsAt0_first (c : Dev nD) (t : Fin cfg0.N) (h0 : t.val % 16 = 0) :
    outsAt0 V c t.val t.isLt = (VO0.read (Elt F) VO0.junk, accFirst0 c (grid0.coords t) (ms0_0 t) (hs0_0 t) (ms0_1 t) (hs0_1 t) (ms0_2 t) (hs0_2 t) scM0 (Memref.isWhole_whole _) ((first0_iff t).mpr h0) (fun h => by have := (last0_iff t).mp h; omega) (iblk0 V c 0 t) (iblk0 V c 1 t)) := by
  obtain ⟨n, hn⟩ := t
  cases n <;> (unfold outsAt0 step0; exact dif_pos h0)

theorem outsAt0_mid (c : Dev nD) (t : Fin cfg0.N) (h0 : ¬t.val % 16 = 0) (h1 : ¬t.val % 16 = 15) :
    outsAt0 V c t.val t.isLt = (VO0.read (Elt F) VO0.junk, accMid0 c (grid0.coords t) (ms0_0 t) (hs0_0 t) (ms0_1 t) (hs0_1 t) (ms0_2 t) (hs0_2 t) scM0 (Memref.isWhole_whole _) (fun h => h0 ((first0_iff t).mp h)) (fun h => h1 ((last0_iff t).mp h)) (iblk0 V c 0 t) (iblk0 V c 1 t) (outsAt0 V c (t.val - 1) (Nat.lt_of_le_of_lt (Nat.sub_le _ _) t.isLt)).2) := by
  rw [outsAt0_succ V c t h0]; unfold step0; rw [dif_neg h0, dif_neg h1]

theorem outsAt0_last (c : Dev nD) (t : Fin cfg0.N) (h0 : ¬t.val % 16 = 0) (h1 : t.val % 16 = 15) :
    outsAt0 V c t.val t.isLt = (outLast0 c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) (outsAt0 V c (t.val - 1) (Nat.lt_of_le_of_lt (Nat.sub_le _ _) t.isLt)).2, accLast0 c (grid0.coords t) (ms0_0 t) (hs0_0 t) (ms0_1 t) (hs0_1 t) (ms0_2 t) (hs0_2 t) scM0 (Memref.isWhole_whole _) (fun h => h0 ((first0_iff t).mp h)) ((last0_iff t).mpr h1) (iblk0 V c 0 t) (iblk0 V c 1 t) (outsAt0 V c (t.val - 1) (Nat.lt_of_le_of_lt (Nat.sub_le _ _) t.isLt)).2) := by
  rw [outsAt0_succ V c t h0]; unfold step0; rw [dif_neg h0, dif_pos h1]

def Phi0 (c : Dev nD) : (n : ℕ) → n ≤ cfg0.N → sProp 𝕄
  | 0, _ => Pipeline.ΦA spec0 c
  | n + 1, hn => iprop((owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem Phi0_pos (c : Dev nD) (n : ℕ) (h : n ≤ cfg0.N) (hz : n ≠ 0) :
    Phi0 V c n h = iprop((owns (c : Thread nD τ) scM0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

theorem Phi0_out (c : Dev nD) (n : ℕ) (h : n ≤ cfg0.N) : Phi0 V c n h ⊢ (Pipeline.ΦA spec0 c : sProp 𝕄) := by
  cases n with
  | zero => exact .rfl
  | succ n =>
    rw [Phi0_pos V c _ h (Nat.succ_ne_zero n), PhiA0_eq]
    iintro ⟨⟨HS, Hr⟩, Hg⟩
    isplitl [HS Hr]
    · isplitl [HS]; · iexists _; iexact HS
      iexact Hr
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := Phi0 V c t.val (Nat.le_of_lt_succ t.isLt)
  q _ := fullShare
  owed _ := 0

theorem after0_2 (c : Dev nD) (t : Fin cfg0.N) : (dat0 V c).after 2 t = (outsAt0 V c t.val t.isLt).1 := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

/-- the body at any grid point, by the point's place in its sweep -/
theorem sound_body0 (c : Dev nD) (t : Fin cfg0.N) :
    iprop(Phi0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
      ⊢ wp frame (wpE (defs₀ (F := F)) Variants.none c none) Set.univ (bodyAt0 t) (fun _ =>
        iprop(Phi0 V c (t.val + 1) t.isLt ∗ (dat0 V c).owesAt () t.castSucc
          ∗ owns (c : Thread nD τ) (ms0_0 t) fullShare (iblk0 V c 0 t) ∗ owns (c : Thread nD τ) (ms0_1 t) fullShare (iblk0 V c 1 t)
          ∗ (dat0 V c).leavesExact 2 t)) := by
  unfold bodyAt0
  simp only [before0_0, before0_1]
  rw [Phi0]
  have hN : t.val < 256 := lt_of_lt_of_eq t.isLt N0
  have hf := first0_iff t
  have hl := last0_iff t
  by_cases h0 : t.val % 16 = 0
  · have nl : ¬last0 (grid0.coords t) := fun h => by have := hl.mp h; omega
    rw [Dat.leavesExact_idle (dat0 V c) 2 t (idle0_2 t nl) (noFlush0_2 t nl), outsAt0_first V c t h0]
    unfold accFirst0; dsimp only
    refine (sep_mono_left (Phi0_out V c _ _)).trans ?_
    rw [PhiA0_eq]
    iintro ⟨⟨⟨HS, Hrest⟩, Hg⟩, Ho, ⟨%d0, H0⟩, ⟨%d1, H1⟩, ⟨%d2, H2⟩⟩
    iapply ((run0_first c _ _ _ _ _ _ _ _ _ (hf.mpr h0) nl (iblk0 V c 0 t) (iblk0 V c 1 t)).2 _ Set.univ _)
    iframe H0 H1 H2 HS
    iintro ⟨H0, H1, H2, HS⟩
    ihave HS := owns_pieces c scM0 _ (coverFirst0 c _ _ _ _ _ _ _ _ _ _ _ _ _) $$ HS
    iframe HS Hrest Hg Ho H0 H1
    iexists _; iexact H2
  · have hz : t.val ≠ 0 := fun h => h0 (by rw [h])
    rw [Phi0_pos V c _ _ hz]
    have nf : ¬first0 (grid0.coords t) := fun h => h0 (hf.mp h)
    by_cases h1 : t.val % 16 = 15
    · rw [show (dat0 V c).leavesExact 2 t = owns (c : Thread nD τ) (ms0_2 t) fullShare ((dat0 V c).after 2 t) from by
        unfold Dat.leavesExact; rw [live0_2 t (hl.mpr h1)], after0_2, outsAt0_last V c t h0 h1]
      unfold outLast0 accLast0; dsimp only
      iintro ⟨⟨⟨HS, Hrest⟩, Hg⟩, Ho, ⟨%d0, H0⟩, ⟨%d1, H1⟩, ⟨%d2, H2⟩⟩
      iapply ((run0_last c _ _ _ _ _ _ _ _ _ nf (hl.mpr h1) (iblk0 V c 0 t) (iblk0 V c 1 t) _).2.2 Set.univ _)
      iframe H0 H1
      isplitl [H2]; · iexists _; iexact H2
      iframe HS
      iintro ⟨H0, H1, ⟨%e2, H2⟩, HS⟩
      ihave HS := owns_pieces c scM0 _ (coverAccLast0 c _ _ _ _ _ _ _ _ _ _ _ _ _ _) $$ HS
      iframe HS Hrest Hg Ho H0 H1
      unfold owns; iexists _; isplitr
      swap; · iexact H2
      ipureintro; exact View.read_writes_of_cover _ _ _ _ _ (coverOutLast0 c _ _ _ _ _ _ _ _ _ _ _ _ _ _)
    · have nl : ¬last0 (grid0.coords t) := fun h => h1 (hl.mp h)
      rw [Dat.leavesExact_idle (dat0 V c) 2 t (idle0_2 t nl) (noFlush0_2 t nl), outsAt0_mid V c t h0 h1]
      unfold accMid0; dsimp only
      iintro ⟨⟨⟨HS, Hrest⟩, Hg⟩, Ho, ⟨%d0, H0⟩, ⟨%d1, H1⟩, ⟨%d2, H2⟩⟩
      iapply ((run0_mid c _ _ _ _ _ _ _ _ _ nf nl (iblk0 V c 0 t) (iblk0 V c 1 t) _).2 _ Set.univ _)
      iframe H0 H1 H2 HS
      iintro ⟨H0, H1, H2, HS⟩
      ihave HS := owns_pieces c scM0 _ (coverMid0 c _ _ _ _ _ _ _ _ _ _ _ _ _ _) $$ HS
      iframe HS Hrest Hg Ho H0 H1
      iexists _; iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Run.lean ====
import proofs.«425186_j76596446757483_2_alg».proof.Proof.Gen.KernelIdeal.Launch
import proofs.«425186_j76596446757483_2_alg».proof.Proof.Gen.KernelIdeal.Skeleton
import proofs.«425186_j76596446757483_2_alg».proof.Proof.Gen.KernelIdeal.Points
import proofs.«425186_j76596446757483_2_alg».proof.Proof.LibPieces
import Idealize.ShloMosaic.Lib.Pipeline.FrameSuffix
import Idealize.ShloMosaic.Lib.Ring

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

/-- the first table tile of a sweep (coordinate 0), and below the last (coordinate 15) -/
abbrev first1 (i : grid1.Coords) : Prop :=
  (Scalar.cmpi .ne (Scalar.extui (Scalar.cmpi .eq (BitVec.ofNat 32 (i 1).val) 0#32)) 0#32) = 1#1

abbrev last1 (i : grid1.Coords) : Prop := k1_cond2 i = 1#1

theorem first1_iff : ∀ t : Fin cfg1.N, first1 (grid1.coords t) ↔ t.val % 16 = 0 :=
  (by decide +kernel : ∀ t : Fin grid1.N, first1 (grid1.coords t) ↔ t.val % 16 = 0)

theorem last1_iff : ∀ t : Fin cfg1.N, last1 (grid1.coords t) ↔ t.val % 16 = 15 :=
  (by decide +kernel : ∀ t : Fin grid1.N, last1 (grid1.coords t) ↔ t.val % 16 = 15)

variable (c : Dev nD) (i : grid1.Coords)
    (arg2 : Memref sig .tc .vmem S4096x4 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- the body's run at the first table tile of a sweep: the running sums start from zero -/
def run1_first (hc0 : first1 i) (hc1 : ¬last1 i)
    (x0 : Vec F S4096x4 .i32) (x1 : Vec F S4096x16 .bf16) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__gather_norm_kernel i arg2 harg2 arg3 harg3 arg4 harg4 arg5 harg5) K } := by
  refine ⟨?_, fun xo E K => ?run⟩
  case run =>
    simp only [cc1__gather_norm_kernel_eq_skeleton]; unfold cc1__gather_norm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at a table tile inside a sweep: the running sums `xs` of the tile before go on -/
def run1_mid (hc0 : ¬first1 i) (hc1 : ¬last1 i)
    (x0 : Vec F S4096x4 .i32) (x1 : Vec F S4096x16 .bf16) (xs : Vec F S4096x16 .f32) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__gather_norm_kernel i arg2 harg2 arg3 harg3 arg4 harg4 arg5 harg5) K } := by
  refine ⟨?_, fun xo E K => ?run⟩
  case run =>
    simp only [cc1__gather_norm_kernel_eq_skeleton]; unfold cc1__gather_norm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at the last table tile: the same, and the norms are written -/
def run1_last (hc0 : ¬first1 i) (hc1 : last1 i)
    (x0 : Vec F S4096x4 .i32) (x1 : Vec F S4096x16 .bf16) (xs : Vec F S4096x16 .f32) :
    Σ' (LO : List (View.Piece (Elt F) S4096x1 .f32)), { LS : List (View.Piece (Elt F) S4096x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__gather_norm_kernel i arg2 harg2 arg3 harg3 arg4 harg4 arg5 harg5) K } := by
  refine ⟨?_, ?_, fun E K => ?run⟩
  case run =>
    simp only [cc1__gather_norm_kernel_eq_skeleton]; unfold cc1__gather_norm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    ihave H0 := owns_unread c harg2 _ $$ H0
    ihave H1 := owns_unread c harg3 _ $$ H1
    iframe H0 H1
    isplitl [H2]
    · iexists _; iexact H2
    iexists _; iexact HS

end Cert.KernelIdeal.Hand

end
-- ==== Proof.KI.R1Dat.lean ====
import proofs.«425186_j76596446757483_2_alg».proof.Proof.KI.R1Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms1_0 (t : Fin cfg1.N) : Memref sig .tc .vmem S4096x4 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x16 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x1 .f32 := win1_2.stage (cfg1.slots t 2)
abbrev hs1_2 (t : Fin cfg1.N) : (ms1_2 t).IsWhole := hstage1_2 ((cfg1.slots t 2).cast nbuf1_2)
abbrev scM1 : Memref sig .tc .vmem S4096x16 .f32 := Memref.whole cc1_scratch0
abbrev VS1 : View sig .tc .vmem S4096x16 .f32 := scM1.view
abbrev VO1 : View sig .tc .vmem S4096x1 .f32 := (Memref.whole cc1_stg2_0 : Memref sig .tc .vmem S4096x1 .f32).view

/-- window `w`'s block of its array at grid point `t` -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

theorem PhiA1_eq (c : Dev nD) :
    (Pipeline.ΦA spec1 c : sProp 𝕄)
      = iprop(((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list (win := spec1) (c := c) [cc1_scratch0] (by decide) (by decide)]
  rw [bigSepL_singleton]
  simp only [scM1, owns_whole]; try rfl

section Pieces
variable (c : Dev nD) (i : grid1.Coords)
    (arg2 : Memref sig .tc .vmem S4096x4 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- what each control case leaves of the running sums (at the last table tile also the norms) -/
def accFirst1 (hc0 : first1 i) (hc1 : ¬last1 i) (x0 : Vec F S4096x4 .i32) (x1 : Vec F S4096x16 .bf16) : Vec F S4096x16 .f32 :=
  VS1.read (Elt F) (VS1.writes (Elt F) VS1.junk (run1_first c i arg2 harg2 arg3 harg3 arg4 harg4 arg5 harg5 hc0 hc1 x0 x1).1)

theorem coverFirst1 (hc0 : first1 i) (hc1 : ¬last1 i) (x0 : Vec F S4096x4 .i32) (x1 : Vec F S4096x16 .bf16) (y : S4096x16.Idx) :
    ∃ pc ∈ (run1_first c i arg2 harg2 arg3 harg3 arg4 harg4 arg5 harg5 hc0 hc1 x0 x1).1, y ∈ pc.1.set :=
  View.cover_of_tiledL _ S4096x16.size (by sl_kernel_rfl) y

def accMid1 (hc0 : ¬first1 i) (hc1 : ¬last1 i) (x0 : Vec F S4096x4 .i32) (x1 : Vec F S4096x16 .bf16) (xs : Vec F S4096x16 .f32) : Vec F S4096x16 .f32 :=
  VS1.read (Elt F) (VS1.writes (Elt F) VS1.junk (run1_mid c i arg2 harg2 arg3 harg3 arg4 harg4 arg5 harg5 hc0 hc1 x0 x1 xs).1)

theorem coverMid1 (hc0 : ¬first1 i) (hc1 : ¬last1 i) (x0 : Vec F S4096x4 .i32) (x1 : Vec F S4096x16 .bf16) (xs : Vec F S4096x16 .f32) (y : S4096x16.Idx) :
    ∃ pc ∈ (run1_mid c i arg2 harg2 arg3 harg3 arg4 harg4 arg5 harg5 hc0 hc1 x0 x1 xs).1, y ∈ pc.1.set :=
  View.cover_of_tiledL _ S4096x16.size (by sl_kernel_rfl) y

def accLast1 (hc0 : ¬first1 i) (hc1 : last1 i) (x0 : Vec F S4096x4 .i32) (x1 : Vec F S4096x16 .bf16) (xs : Vec F S4096x16 .f32) : Vec F S4096x16 .f32 :=
  VS1.read (Elt F) (VS1.writes (Elt F) VS1.junk (run1_last c i arg2 harg2 arg3 harg3 arg4 harg4 arg5 harg5 hc0 hc1 x0 x1 xs).2.1)

theorem coverAccLast1 (hc0 : ¬first1 i) (hc1 : last1 i) (x0 : Vec F S4096x4 .i32) (x1 : Vec F S4096x16 .bf16) (xs : Vec F S4096x16 .f32) (y : S4096x16.Idx) :
    ∃ pc ∈ (run1_last c i arg2 harg2 arg3 harg3 arg4 harg4 arg5 harg5 hc0 hc1 x0 x1 xs).2.1, y ∈ pc.1.set :=
  View.cover_of_tiledL _ S4096x16.size (by sl_kernel_rfl) y

def outLast1 (hc0 : ¬first1 i) (hc1 : last1 i) (x0 : Vec F S4096x4 .i32) (x1 : Vec F S4096x16 .bf16) (xs : Vec F S4096x16 .f32) : Vec F S4096x1 .f32 :=
  VO1.read (Elt F) (VO1.writes (Elt F) VO1.junk (run1_last c i arg2 harg2 arg3 harg3 arg4 harg4 arg5 harg5 hc0 hc1 x0 x1 xs).1)

theorem coverOutLast1 (hc0 : ¬first1 i) (hc1 : last1 i) (x0 : Vec F S4096x4 .i32) (x1 : Vec F S4096x16 .bf16) (xs : Vec F S4096x16 .f32) (y : S4096x1.Idx) :
    ∃ pc ∈ (run1_last c i arg2 harg2 arg3 harg3 arg4 harg4 arg5 harg5 hc0 hc1 x0 x1 xs).1, y ∈ pc.1.set :=
  View.cover_of_tiledL _ S4096x1.size (by sl_kernel_rfl) y

end Pieces

theorem N1 : cfg1.N = 7824 := N_1

/-- what grid point `t` makes of the running sums the point before left, by its place in the sweep (first component: the norms, written at a sweep's end only) -/
def step1 (c : Dev nD) (t : Fin cfg1.N) (prev : Vec F S4096x16 .f32) : Vec F S4096x1 .f32 × Vec F S4096x16 .f32 :=
  if h0 : t.val % 16 = 0 then (VO1.read (Elt F) VO1.junk, accFirst1 c (grid1.coords t) (ms1_0 t) (hs1_0 t) (ms1_1 t) (hs1_1 t) (ms1_2 t) (hs1_2 t) scM1 (Memref.isWhole_whole _) ((first1_iff t).mpr h0) (fun h => by have := (last1_iff t).mp h; omega) (iblk1 V c 0 t) (iblk1 V c 1 t))
  else if h1 : t.val % 16 = 15 then (outLast1 c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) prev, accLast1 c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) prev)
  else (VO1.read (Elt F) VO1.junk, accMid1 c (grid1.coords t) (ms1_0 t) (hs1_0 t) (ms1_1 t) (hs1_1 t) (ms1_2 t) (hs1_2 t) scM1 (Memref.isWhole_whole _) (fun h => h0 ((first1_iff t).mp h)) (fun h => h1 ((last1_iff t).mp h)) (iblk1 V c 0 t) (iblk1 V c 1 t) prev)

def outsAt1 (c : Dev nD) : (n : ℕ) → n < cfg1.N → Vec F S4096x1 .f32 × Vec F S4096x16 .f32
  | 0, hn => step1 V c ⟨0, hn⟩ (VS1.read (Elt F) VS1.junk)
  | n + 1, hn => step1 V c ⟨n + 1, hn⟩ (outsAt1 c n (Nat.lt_of_succ_lt hn)).2

theorem outsAt1_succ (c : Dev nD) (t : Fin cfg1.N) (h0 : ¬t.val % 16 = 0) :
    outsAt1 V c t.val t.isLt = step1 V c t (outsAt1 V c (t.val - 1) (Nat.lt_of_le_of_lt (Nat.sub_le _ _) t.isLt)).2 := by
  obtain ⟨n, hn⟩ := t
  cases n with
  | zero => exact absurd (Nat.zero_mod _) h0
  | succ n => rfl

/-- a sweep's first point does not look at what came before -/
theorem outsAt1_first (c : Dev nD) (t : Fin cfg1.N) (h0 : t.val % 16 = 0) :
    outsAt1 V c t.val t.isLt = (VO1.read (Elt F) VO1.junk, accFirst1 c (grid1.coords t) (ms1_0 t) (hs1_0 t) (ms1_1 t) (hs1_1 t) (ms1_2 t) (hs1_2 t) scM1 (Memref.isWhole_whole _) ((first1_iff t).mpr h0) (fun h => by have := (last1_iff t).mp h; omega) (iblk1 V c 0 t) (iblk1 V c 1 t)) := by
  obtain ⟨n, hn⟩ := t
  cases n <;> (unfold outsAt1 step1; exact dif_pos h0)

theorem outsAt1_mid (c : Dev nD) (t : Fin cfg1.N) (h0 : ¬t.val % 16 = 0) (h1 : ¬t.val % 16 = 15) :
    outsAt1 V c t.val t.isLt = (VO1.read (Elt F) VO1.junk, accMid1 c (grid1.coords t) (ms1_0 t) (hs1_0 t) (ms1_1 t) (hs1_1 t) (ms1_2 t) (hs1_2 t) scM1 (Memref.isWhole_whole _) (fun h => h0 ((first1_iff t).mp h)) (fun h => h1 ((last1_iff t).mp h)) (iblk1 V c 0 t) (iblk1 V c 1 t) (outsAt1 V c (t.val - 1) (Nat.lt_of_le_of_lt (Nat.sub_le _ _) t.isLt)).2) := by
  rw [outsAt1_succ V c t h0]; unfold step1; rw [dif_neg h0, dif_neg h1]

theorem outsAt1_last (c : Dev nD) (t : Fin cfg1.N) (h0 : ¬t.val % 16 = 0) (h1 : t.val % 16 = 15) :
    outsAt1 V c t.val t.isLt = (outLast1 c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) (outsAt1 V c (t.val - 1) (Nat.lt_of_le_of_lt (Nat.sub_le _ _) t.isLt)).2, accLast1 c (grid1.coords t) (ms1_0 t) (hs1_0 t) (ms1_1 t) (hs1_1 t) (ms1_2 t) (hs1_2 t) scM1 (Memref.isWhole_whole _) (fun h => h0 ((first1_iff t).mp h)) ((last1_iff t).mpr h1) (iblk1 V c 0 t) (iblk1 V c 1 t) (outsAt1 V c (t.val - 1) (Nat.lt_of_le_of_lt (Nat.sub_le _ _) t.isLt)).2) := by
  rw [outsAt1_succ V c t h0]; unfold step1; rw [dif_neg h0, dif_pos h1]

def Phi1 (c : Dev nD) : (n : ℕ) → n ≤ cfg1.N → sProp 𝕄
  | 0, _ => Pipeline.ΦA spec1 c
  | n + 1, hn => iprop((owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem Phi1_pos (c : Dev nD) (n : ℕ) (h : n ≤ cfg1.N) (hz : n ≠ 0) :
    Phi1 V c n h = iprop((owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem Phi1_out (c : Dev nD) (n : ℕ) (h : n ≤ cfg1.N) : Phi1 V c n h ⊢ (Pipeline.ΦA spec1 c : sProp 𝕄) := by
  cases n with
  | zero => exact .rfl
  | succ n =>
    rw [Phi1_pos V c _ h (Nat.succ_ne_zero n), PhiA1_eq]
    iintro ⟨⟨HS, Hr⟩, Hg⟩
    isplitl [HS Hr]
    · isplitl [HS]; · iexists _; iexact HS
      iexact Hr
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := Phi1 V c t.val (Nat.le_of_lt_succ t.isLt)
  q _ := fullShare
  owed _ := 0

theorem after1_2 (c : Dev nD) (t : Fin cfg1.N) : (dat1 V c).after 2 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

/-- the body at any grid point, by the point's place in its sweep -/
theorem sound_body1 (c : Dev nD) (t : Fin cfg1.N) :
    iprop(Phi1 V c t.val (Nat.le_of_lt t.isLt) ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
      ⊢ wp frame (wpE (defs₀ (F := F)) Variants.none c none) Set.univ (bodyAt1 t) (fun _ =>
        iprop(Phi1 V c (t.val + 1) t.isLt ∗ (dat1 V c).owesAt () t.castSucc
          ∗ owns (c : Thread nD τ) (ms1_0 t) fullShare (iblk1 V c 0 t) ∗ owns (c : Thread nD τ) (ms1_1 t) fullShare (iblk1 V c 1 t)
          ∗ (dat1 V c).leavesExact 2 t)) := by
  unfold bodyAt1
  simp only [before1_0, before1_1]
  rw [Phi1]
  have hN : t.val < 7824 := lt_of_lt_of_eq t.isLt N1
  have hf := first1_iff t
  have hl := last1_iff t
  by_cases h0 : t.val % 16 = 0
  · have nl : ¬last1 (grid1.coords t) := fun h => by have := hl.mp h; omega
    rw [Dat.leavesExact_idle (dat1 V c) 2 t (idle1_2 t nl) (noFlush1_2 t nl), outsAt1_first V c t h0]
    unfold accFirst1; dsimp only
    refine (sep_mono_left (Phi1_out V c _ _)).trans ?_
    rw [PhiA1_eq]
    iintro ⟨⟨⟨HS, Hrest⟩, Hg⟩, Ho, ⟨%d0, H0⟩, ⟨%d1, H1⟩, ⟨%d2, H2⟩⟩
    iapply ((run1_first c _ _ _ _ _ _ _ _ _ (hf.mpr h0) nl (iblk1 V c 0 t) (iblk1 V c 1 t)).2 _ Set.univ _)
    iframe H0 H1 H2 HS
    iintro ⟨H0, H1, H2, HS⟩
    ihave HS := owns_pieces c scM1 _ (coverFirst1 c _ _ _ _ _ _ _ _ _ _ _ _ _) $$ HS
    iframe HS Hrest Hg Ho H0 H1
    iexists _; iexact H2
  · have hz : t.val ≠ 0 := fun h => h0 (by rw [h])
    rw [Phi1_pos V c _ _ hz]
    have nf : ¬first1 (grid1.coords t) := fun h => h0 (hf.mp h)
    by_cases h1 : t.val % 16 = 15
    · rw [show (dat1 V c).leavesExact 2 t = owns (c : Thread nD τ) (ms1_2 t) fullShare ((dat1 V c).after 2 t) from by
        unfold Dat.leavesExact; rw [live1_2 t (hl.mpr h1)], after1_2, outsAt1_last V c t h0 h1]
      unfold outLast1 accLast1; dsimp only
      iintro ⟨⟨⟨HS, Hrest⟩, Hg⟩, Ho, ⟨%d0, H0⟩, ⟨%d1, H1⟩, ⟨%d2, H2⟩⟩
      iapply ((run1_last c _ _ _ _ _ _ _ _ _ nf (hl.mpr h1) (iblk1 V c 0 t) (iblk1 V c 1 t) _).2.2 Set.univ _)
      iframe H0 H1
      isplitl [H2]; · iexists _; iexact H2
      iframe HS
      iintro ⟨H0, H1, ⟨%e2, H2⟩, HS⟩
      ihave HS := owns_pieces c scM1 _ (coverAccLast1 c _ _ _ _ _ _ _ _ _ _ _ _ _ _) $$ HS
      iframe HS Hrest Hg Ho H0 H1
      unfold owns; iexists _; isplitr
      swap; · iexact H2
      ipureintro; exact View.read_writes_of_cover _ _ _ _ _ (coverOutLast1 c _ _ _ _ _ _ _ _ _ _ _ _ _ _)
    · have nl : ¬last1 (grid1.coords t) := fun h => h1 (hl.mp h)
      rw [Dat.leavesExact_idle (dat1 V c) 2 t (idle1_2 t nl) (noFlush1_2 t nl), outsAt1_mid V c t h0 h1]
      unfold accMid1; dsimp only
      iintro ⟨⟨⟨HS, Hrest⟩, Hg⟩, Ho, ⟨%d0, H0⟩, ⟨%d1, H1⟩, ⟨%d2, H2⟩⟩
      iapply ((run1_mid c _ _ _ _ _ _ _ _ _ nf nl (iblk1 V c 0 t) (iblk1 V c 1 t) _).2 _ Set.univ _)
      iframe H0 H1 H2 HS
      iintro ⟨H0, H1, H2, HS⟩
      ihave HS := owns_pieces c scM1 _ (coverMid1 c _ _ _ _ _ _ _ _ _ _ _ _ _ _) $$ HS
      iframe HS Hrest Hg Ho H0 H1
      iexists _; iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Run.lean ====
import proofs.«425186_j76596446757483_2_alg».proof.Proof.Gen.KernelIdeal.Launch
import proofs.«425186_j76596446757483_2_alg».proof.Proof.Gen.KernelIdeal.Skeleton
import proofs.«425186_j76596446757483_2_alg».proof.Proof.Gen.KernelIdeal.Points
import proofs.«425186_j76596446757483_2_alg».proof.Proof.LibPieces
import Idealize.ShloMosaic.Lib.Pipeline.FrameSuffix
import Idealize.ShloMosaic.Lib.Ring

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

/-- the first table tile of a sweep (coordinate 0), and below the last (coordinate 15) -/
abbrev first2 (i : grid2.Coords) : Prop :=
  (Scalar.cmpi .ne (Scalar.extui (Scalar.cmpi .eq (BitVec.ofNat 32 (i 1).val) 0#32)) 0#32) = 1#1

abbrev last2 (i : grid2.Coords) : Prop := k2_cond2 i = 1#1

theorem first2_iff : ∀ t : Fin cfg2.N, first2 (grid2.coords t) ↔ t.val % 16 = 0 :=
  (by decide +kernel : ∀ t : Fin grid2.N, first2 (grid2.coords t) ↔ t.val % 16 = 0)

theorem last2_iff : ∀ t : Fin cfg2.N, last2 (grid2.coords t) ↔ t.val % 16 = 15 :=
  (by decide +kernel : ∀ t : Fin grid2.N, last2 (grid2.coords t) ↔ t.val % 16 = 15)

variable (c : Dev nD) (i : grid2.Coords)
    (arg2 : Memref sig .tc .vmem S4096x4 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- the body's run at the first table tile of a sweep: the running sums start from zero -/
def run2_first (hc0 : first2 i) (hc1 : ¬last2 i)
    (x0 : Vec F S4096x4 .i32) (x1 : Vec F S4096x16 .bf16) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc2__gather_norm_kernel i arg2 harg2 arg3 harg3 arg4 harg4 arg5 harg5) K } := by
  refine ⟨?_, fun xo E K => ?run⟩
  case run =>
    simp only [cc2__gather_norm_kernel_eq_skeleton]; unfold cc2__gather_norm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at a table tile inside a sweep: the running sums `xs` of the tile before go on -/
def run2_mid (hc0 : ¬first2 i) (hc1 : ¬last2 i)
    (x0 : Vec F S4096x4 .i32) (x1 : Vec F S4096x16 .bf16) (xs : Vec F S4096x16 .f32) :
    { LS : List (View.Piece (Elt F) S4096x16 .f32) //
      ∀ (xo : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc2__gather_norm_kernel i arg2 harg2 arg3 harg3 arg4 harg4 arg5 harg5) K } := by
  refine ⟨?_, fun xo E K => ?run⟩
  case run =>
    simp only [cc2__gather_norm_kernel_eq_skeleton]; unfold cc2__gather_norm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    ihave H0 := owns_unread c harg2 _ $$ H0
    ihave H1 := owns_unread c harg3 _ $$ H1
    ihave H2 := owns_unread c harg4 _ $$ H2
    iframe H0 H1 H2
    iexists _; iexact HS

/-- the body's run at the last table tile: the same, and the norms are written -/
def run2_last (hc0 : ¬first2 i) (hc1 : last2 i)
    (x0 : Vec F S4096x4 .i32) (x1 : Vec F S4096x16 .bf16) (xs : Vec F S4096x16 .f32) :
    Σ' (LO : List (View.Piece (Elt F) S4096x1 .f32)), { LS : List (View.Piece (Elt F) S4096x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2__gather_norm_kernel i arg2 harg2 arg3 harg3 arg4 harg4 arg5 harg5) K } := by
  refine ⟨?_, ?_, fun E K => ?run⟩
  case run =>
    simp only [cc2__gather_norm_kernel_eq_skeleton]; unfold cc2__gather_norm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    ihave H0 := owns_unread c harg2 _ $$ H0
    ihave H1 := owns_unread c harg3 _ $$ H1
    iframe H0 H1
    isplitl [H2]
    · iexists _; iexact H2
    iexists _; iexact HS

end Cert.KernelIdeal.Hand

end
-- ==== Proof.KI.R2Dat.lean ====
import proofs.«425186_j76596446757483_2_alg».proof.Proof.KI.R2Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms2_0 (t : Fin cfg2.N) : Memref sig .tc .vmem S4096x4 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x16 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x1 .f32 := win2_2.stage (cfg2.slots t 2)
abbrev hs2_2 (t : Fin cfg2.N) : (ms2_2 t).IsWhole := hstage2_2 ((cfg2.slots t 2).cast nbuf2_2)
abbrev scM2 : Memref sig .tc .vmem S4096x16 .f32 := Memref.whole cc2_scratch0
abbrev VS2 : View sig .tc .vmem S4096x16 .f32 := scM2.view
abbrev VO2 : View sig .tc .vmem S4096x1 .f32 := (Memref.whole cc2_stg2_0 : Memref sig .tc .vmem S4096x1 .f32).view

/-- window `w`'s block of its array at grid point `t` -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

theorem PhiA2_eq (c : Dev nD) :
    (Pipeline.ΦA spec2 c : sProp 𝕄)
      = iprop(((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list (win := spec2) (c := c) [cc2_scratch0] (by decide) (by decide)]
  rw [bigSepL_singleton]
  simp only [scM2, owns_whole]; try rfl

section Pieces
variable (c : Dev nD) (i : grid2.Coords)
    (arg2 : Memref sig .tc .vmem S4096x4 .i32) (harg2 : arg2.IsWhole) (arg3 : Memref sig .tc .vmem S4096x16 .bf16) (harg3 : arg3.IsWhole)
    (arg4 : Memref sig .tc .vmem S4096x1 .f32) (harg4 : arg4.IsWhole) (arg5 : Memref sig .tc .vmem S4096x16 .f32) (harg5 : arg5.IsWhole)

/-- what each control case leaves of the running sums (at the last table tile also the norms) -/
def accFirst2 (hc0 : first2 i) (hc1 : ¬last2 i) (x0 : Vec F S4096x4 .i32) (x1 : Vec F S4096x16 .bf16) : Vec F S4096x16 .f32 :=
  VS2.read (Elt F) (VS2.writes (Elt F) VS2.junk (run2_first c i arg2 harg2 arg3 harg3 arg4 harg4 arg5 harg5 hc0 hc1 x0 x1).1)

theorem coverFirst2 (hc0 : first2 i) (hc1 : ¬last2 i) (x0 : Vec F S4096x4 .i32) (x1 : Vec F S4096x16 .bf16) (y : S4096x16.Idx) :
    ∃ pc ∈ (run2_first c i arg2 harg2 arg3 harg3 arg4 harg4 arg5 harg5 hc0 hc1 x0 x1).1, y ∈ pc.1.set :=
  View.cover_of_tiledL _ S4096x16.size (by sl_kernel_rfl) y

def accMid2 (hc0 : ¬first2 i) (hc1 : ¬last2 i) (x0 : Vec F S4096x4 .i32) (x1 : Vec F S4096x16 .bf16) (xs : Vec F S4096x16 .f32) : Vec F S4096x16 .f32 :=
  VS2.read (Elt F) (VS2.writes (Elt F) VS2.junk (run2_mid c i arg2 harg2 arg3 harg3 arg4 harg4 arg5 harg5 hc0 hc1 x0 x1 xs).1)

theorem coverMid2 (hc0 : ¬first2 i) (hc1 : ¬last2 i) (x0 : Vec F S4096x4 .i32) (x1 : Vec F S4096x16 .bf16) (xs : Vec F S4096x16 .f32) (y : S4096x16.Idx) :
    ∃ pc ∈ (run2_mid c i arg2 harg2 arg3 harg3 arg4 harg4 arg5 harg5 hc0 hc1 x0 x1 xs).1, y ∈ pc.1.set :=
  View.cover_of_tiledL _ S4096x16.size (by sl_kernel_rfl) y

def accLast2 (hc0 : ¬first2 i) (hc1 : last2 i) (x0 : Vec F S4096x4 .i32) (x1 : Vec F S4096x16 .bf16) (xs : Vec F S4096x16 .f32) : Vec F S4096x16 .f32 :=
  VS2.read (Elt F) (VS2.writes (Elt F) VS2.junk (run2_last c i arg2 harg2 arg3 harg3 arg4 harg4 arg5 harg5 hc0 hc1 x0 x1 xs).2.1)

theorem coverAccLast2 (hc0 : ¬first2 i) (hc1 : last2 i) (x0 : Vec F S4096x4 .i32) (x1 : Vec F S4096x16 .bf16) (xs : Vec F S4096x16 .f32) (y : S4096x16.Idx) :
    ∃ pc ∈ (run2_last c i arg2 harg2 arg3 harg3 arg4 harg4 arg5 harg5 hc0 hc1 x0 x1 xs).2.1, y ∈ pc.1.set :=
  View.cover_of_tiledL _ S4096x16.size (by sl_kernel_rfl) y

def outLast2 (hc0 : ¬first2 i) (hc1 : last2 i) (x0 : Vec F S4096x4 .i32) (x1 : Vec F S4096x16 .bf16) (xs : Vec F S4096x16 .f32) : Vec F S4096x1 .f32 :=
  VO2.read (Elt F) (VO2.writes (Elt F) VO2.junk (run2_last c i arg2 harg2 arg3 harg3 arg4 harg4 arg5 harg5 hc0 hc1 x0 x1 xs).1)

theorem coverOutLast2 (hc0 : ¬first2 i) (hc1 : last2 i) (x0 : Vec F S4096x4 .i32) (x1 : Vec F S4096x16 .bf16) (xs : Vec F S4096x16 .f32) (y : S4096x1.Idx) :
    ∃ pc ∈ (run2_last c i arg2 harg2 arg3 harg3 arg4 harg4 arg5 harg5 hc0 hc1 x0 x1 xs).1, y ∈ pc.1.set :=
  View.cover_of_tiledL _ S4096x1.size (by sl_kernel_rfl) y

end Pieces

theorem N2 : cfg2.N = 7824 := N_2

/-- what grid point `t` makes of the running sums the point before left, by its place in the sweep (first component: the norms, written at a sweep's end only) -/
def step2 (c : Dev nD) (t : Fin cfg2.N) (prev : Vec F S4096x16 .f32) : Vec F S4096x1 .f32 × Vec F S4096x16 .f32 :=
  if h0 : t.val % 16 = 0 then (VO2.read (Elt F) VO2.junk, accFirst2 c (grid2.coords t) (ms2_0 t) (hs2_0 t) (ms2_1 t) (hs2_1 t) (ms2_2 t) (hs2_2 t) scM2 (Memref.isWhole_whole _) ((first2_iff t).mpr h0) (fun h => by have := (last2_iff t).mp h; omega) (iblk2 V c 0 t) (iblk2 V c 1 t))
  else if h1 : t.val % 16 = 15 then (outLast2 c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) prev, accLast2 c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) prev)
  else (VO2.read (Elt F) VO2.junk, accMid2 c (grid2.coords t) (ms2_0 t) (hs2_0 t) (ms2_1 t) (hs2_1 t) (ms2_2 t) (hs2_2 t) scM2 (Memref.isWhole_whole _) (fun h => h0 ((first2_iff t).mp h)) (fun h => h1 ((last2_iff t).mp h)) (iblk2 V c 0 t) (iblk2 V c 1 t) prev)

def outsAt2 (c : Dev nD) : (n : ℕ) → n < cfg2.N → Vec F S4096x1 .f32 × Vec F S4096x16 .f32
  | 0, hn => step2 V c ⟨0, hn⟩ (VS2.read (Elt F) VS2.junk)
  | n + 1, hn => step2 V c ⟨n + 1, hn⟩ (outsAt2 c n (Nat.lt_of_succ_lt hn)).2

theorem outsAt2_succ (c : Dev nD) (t : Fin cfg2.N) (h0 : ¬t.val % 16 = 0) :
    outsAt2 V c t.val t.isLt = step2 V c t (outsAt2 V c (t.val - 1) (Nat.lt_of_le_of_lt (Nat.sub_le _ _) t.isLt)).2 := by
  obtain ⟨n, hn⟩ := t
  cases n with
  | zero => exact absurd (Nat.zero_mod _) h0
  | succ n => rfl

/-- a sweep's first point does not look at what came before -/
theorem outsAt2_first (c : Dev nD) (t : Fin cfg2.N) (h0 : t.val % 16 = 0) :
    outsAt2 V c t.val t.isLt = (VO2.read (Elt F) VO2.junk, accFirst2 c (grid2.coords t) (ms2_0 t) (hs2_0 t) (ms2_1 t) (hs2_1 t) (ms2_2 t) (hs2_2 t) scM2 (Memref.isWhole_whole _) ((first2_iff t).mpr h0) (fun h => by have := (last2_iff t).mp h; omega) (iblk2 V c 0 t) (iblk2 V c 1 t)) := by
  obtain ⟨n, hn⟩ := t
  cases n <;> (unfold outsAt2 step2; exact dif_pos h0)

theorem outsAt2_mid (c : Dev nD) (t : Fin cfg2.N) (h0 : ¬t.val % 16 = 0) (h1 : ¬t.val % 16 = 15) :
    outsAt2 V c t.val t.isLt = (VO2.read (Elt F) VO2.junk, accMid2 c (grid2.coords t) (ms2_0 t) (hs2_0 t) (ms2_1 t) (hs2_1 t) (ms2_2 t) (hs2_2 t) scM2 (Memref.isWhole_whole _) (fun h => h0 ((first2_iff t).mp h)) (fun h => h1 ((last2_iff t).mp h)) (iblk2 V c 0 t) (iblk2 V c 1 t) (outsAt2 V c (t.val - 1) (Nat.lt_of_le_of_lt (Nat.sub_le _ _) t.isLt)).2) := by
  rw [outsAt2_succ V c t h0]; unfold step2; rw [dif_neg h0, dif_neg h1]

theorem outsAt2_last (c : Dev nD) (t : Fin cfg2.N) (h0 : ¬t.val % 16 = 0) (h1 : t.val % 16 = 15) :
    outsAt2 V c t.val t.isLt = (outLast2 c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) (outsAt2 V c (t.val - 1) (Nat.lt_of_le_of_lt (Nat.sub_le _ _) t.isLt)).2, accLast2 c (grid2.coords t) (ms2_0 t) (hs2_0 t) (ms2_1 t) (hs2_1 t) (ms2_2 t) (hs2_2 t) scM2 (Memref.isWhole_whole _) (fun h => h0 ((first2_iff t).mp h)) ((last2_iff t).mpr h1) (iblk2 V c 0 t) (iblk2 V c 1 t) (outsAt2 V c (t.val - 1) (Nat.lt_of_le_of_lt (Nat.sub_le _ _) t.isLt)).2) := by
  rw [outsAt2_succ V c t h0]; unfold step2; rw [dif_neg h0, dif_pos h1]

def Phi2 (c : Dev nD) : (n : ℕ) → n ≤ cfg2.N → sProp 𝕄
  | 0, _ => Pipeline.ΦA spec2 c
  | n + 1, hn => iprop((owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem Phi2_pos (c : Dev nD) (n : ℕ) (h : n ≤ cfg2.N) (hz : n ≠ 0) :
    Phi2 V c n h = iprop((owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

theorem Phi2_out (c : Dev nD) (n : ℕ) (h : n ≤ cfg2.N) : Phi2 V c n h ⊢ (Pipeline.ΦA spec2 c : sProp 𝕄) := by
  cases n with
  | zero => exact .rfl
  | succ n =>
    rw [Phi2_pos V c _ h (Nat.succ_ne_zero n), PhiA2_eq]
    iintro ⟨⟨HS, Hr⟩, Hg⟩
    isplitl [HS Hr]
    · isplitl [HS]; · iexists _; iexact HS
      iexact Hr
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := Phi2 V c t.val (Nat.le_of_lt_succ t.isLt)
  q _ := fullShare
  owed _ := 0

theorem after2_2 (c : Dev nD) (t : Fin cfg2.N) : (dat2 V c).after 2 t = (outsAt2 V c t.val t.isLt).1 := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

/-- the body at any grid point, by the point's place in its sweep -/
theorem sound_body2 (c : Dev nD) (t : Fin cfg2.N) :
    iprop(Phi2 V c t.val (Nat.le_of_lt t.isLt) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
      ⊢ wp frame (wpE (defs₀ (F := F)) Variants.none c none) Set.univ (bodyAt2 t) (fun _ =>
        iprop(Phi2 V c (t.val + 1) t.isLt ∗ (dat2 V c).owesAt () t.castSucc
          ∗ owns (c : Thread nD τ) (ms2_0 t) fullShare (iblk2 V c 0 t) ∗ owns (c : Thread nD τ) (ms2_1 t) fullShare (iblk2 V c 1 t)
          ∗ (dat2 V c).leavesExact 2 t)) := by
  unfold bodyAt2
  simp only [before2_0, before2_1]
  rw [Phi2]
  have hN : t.val < 7824 := lt_of_lt_of_eq t.isLt N2
  have hf := first2_iff t
  have hl := last2_iff t
  by_cases h0 : t.val % 16 = 0
  · have nl : ¬last2 (grid2.coords t) := fun h => by have := hl.mp h; omega
    rw [Dat.leavesExact_idle (dat2 V c) 2 t (idle2_2 t nl) (noFlush2_2 t nl), outsAt2_first V c t h0]
    unfold accFirst2; dsimp only
    refine (sep_mono_left (Phi2_out V c _ _)).trans ?_
    rw [PhiA2_eq]
    iintro ⟨⟨⟨HS, Hrest⟩, Hg⟩, Ho, ⟨%d0, H0⟩, ⟨%d1, H1⟩, ⟨%d2, H2⟩⟩
    iapply ((run2_first c _ _ _ _ _ _ _ _ _ (hf.mpr h0) nl (iblk2 V c 0 t) (iblk2 V c 1 t)).2 _ Set.univ _)
    iframe H0 H1 H2 HS
    iintro ⟨H0, H1, H2, HS⟩
    ihave HS := owns_pieces c scM2 _ (coverFirst2 c _ _ _ _ _ _ _ _ _ _ _ _ _) $$ HS
    iframe HS Hrest Hg Ho H0 H1
    iexists _; iexact H2
  · have hz : t.val ≠ 0 := fun h => h0 (by rw [h])
    rw [Phi2_pos V c _ _ hz]
    have nf : ¬first2 (grid2.coords t) := fun h => h0 (hf.mp h)
    by_cases h1 : t.val % 16 = 15
    · rw [show (dat2 V c).leavesExact 2 t = owns (c : Thread nD τ) (ms2_2 t) fullShare ((dat2 V c).after 2 t) from by
        unfold Dat.leavesExact; rw [live2_2 t (hl.mpr h1)], after2_2, outsAt2_last V c t h0 h1]
      unfold outLast2 accLast2; dsimp only
      iintro ⟨⟨⟨HS, Hrest⟩, Hg⟩, Ho, ⟨%d0, H0⟩, ⟨%d1, H1⟩, ⟨%d2, H2⟩⟩
      iapply ((run2_last c _ _ _ _ _ _ _ _ _ nf (hl.mpr h1) (iblk2 V c 0 t) (iblk2 V c 1 t) _).2.2 Set.univ _)
      iframe H0 H1
      isplitl [H2]; · iexists _; iexact H2
      iframe HS
      iintro ⟨H0, H1, ⟨%e2, H2⟩, HS⟩
      ihave HS := owns_pieces c scM2 _ (coverAccLast2 c _ _ _ _ _ _ _ _ _ _ _ _ _ _) $$ HS
      iframe HS Hrest Hg Ho H0 H1
      unfold owns; iexists _; isplitr
      swap; · iexact H2
      ipureintro; exact View.read_writes_of_cover _ _ _ _ _ (coverOutLast2 c _ _ _ _ _ _ _ _ _ _ _ _ _ _)
    · have nl : ¬last2 (grid2.coords t) := fun h => h1 (hl.mp h)
      rw [Dat.leavesExact_idle (dat2 V c) 2 t (idle2_2 t nl) (noFlush2_2 t nl), outsAt2_mid V c t h0 h1]
      unfold accMid2; dsimp only
      iintro ⟨⟨⟨HS, Hrest⟩, Hg⟩, Ho, ⟨%d0, H0⟩, ⟨%d1, H1⟩, ⟨%d2, H2⟩⟩
      iapply ((run2_mid c _ _ _ _ _ _ _ _ _ nf nl (iblk2 V c 0 t) (iblk2 V c 1 t) _).2 _ Set.univ _)
      iframe H0 H1 H2 HS
      iintro ⟨H0, H1, H2, HS⟩
      ihave HS := owns_pieces c scM2 _ (coverMid2 c _ _ _ _ _ _ _ _ _ _ _ _ _ _) $$ HS
      iframe HS Hrest Hg Ho H0 H1
      iexists _; iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Launch.lean ====
import proofs.«425186_j76596446757483_2_alg».proof.Proof.KI.R0Dat
import proofs.«425186_j76596446757483_2_alg».proof.Proof.KI.R1Dat
import proofs.«425186_j76596446757483_2_alg».proof.Proof.KI.R2Dat
import proofs.«425186_j76596446757483_2_alg».proof.Proof.Gen.KernelIdeal.Regions
import Idealize.ShloMosaic.Lib.Pipeline.RegionsLoop

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev vr (W : Dev nD → Valuation τ sig (Elt F)) : (c : Dev nD) → (b : Ref sig .tc) → Buf (Elt F) ((c : Thread nD τ).loc b) :=
  fun c b => W c b

def o5 (c : Dev nD) : Buf (Elt F) ((c : Thread nD τ).loc main_v7) := (dat0 (vr (V4 m)) c).arrAt 2 cfg0.N

def X5 (c : Dev nD) : Valuation τ sig (Elt F) := Function.update (V4 m c) main_v7 (o5 m c)

def X6 (c : Dev nD) : Valuation τ sig (Elt F) := StableHlo.after hostOps1 (X5 m c)

def o7 (c : Dev nD) : Buf (Elt F) ((c : Thread nD τ).loc main_v10) := (dat1 (vr (X6 m)) c).arrAt 2 cfg1.N

def X7 (c : Dev nD) : Valuation τ sig (Elt F) := Function.update (X6 m c) main_v10 (o7 m c)

def X8 (c : Dev nD) : Valuation τ sig (Elt F) := StableHlo.after hostOps2 (X7 m c)

def o9 (c : Dev nD) : Buf (Elt F) ((c : Thread nD τ).loc main_v13) := (dat2 (vr (X8 m)) c).arrAt 2 cfg2.N

def X9 (c : Dev nD) : Valuation τ sig (Elt F) := Function.update (X8 m c) main_v13 (o9 m c)

def outs : Outs (F := F) := fun J r c => if J = 5 then X5 m c r else if J = 7 then X7 m c r else X9 m c r

theorem outs5 (c : Dev nD) : outs m 5 main_v7 c = o5 m c := by
  unfold outs X5; rw [if_pos rfl]; exact Function.update_self _ _ _

theorem outs7 (c : Dev nD) : outs m 7 main_v10 c = o7 m c := by
  unfold outs X7; rw [if_neg (by decide), if_pos rfl]; exact Function.update_self _ _ _

theorem outs9 (c : Dev nD) : outs m 9 main_v13 c = o9 m c := by
  unfold outs X9; rw [if_neg (by decide), if_neg (by decide)]; exact Function.update_self _ _ _

theorem V5_eq (c : Dev nD) : V5 m (outs m) c = X5 m c := by
  show Function.update (V4 m c) main_v7 (outs m 5 main_v7 c) = _
  rw [outs5]; rfl

theorem V6_eq (c : Dev nD) : V6 m (outs m) c = X6 m c := by
  show StableHlo.after hostOps1 (V5 m (outs m) c) = _
  rw [V5_eq]; rfl

theorem V7_eq (c : Dev nD) : V7 m (outs m) c = X7 m c := by
  show Function.update (V6 m (outs m) c) main_v10 (outs m 7 main_v10 c) = _
  rw [V6_eq, outs7]; rfl

theorem V8_eq (c : Dev nD) : V8 m (outs m) c = X8 m c := by
  show StableHlo.after hostOps2 (V7 m (outs m) c) = _
  rw [V7_eq]; rfl

theorem V9_eq (c : Dev nD) : V9 m (outs m) c = X9 m c := by
  show Function.update (V8 m (outs m) c) main_v13 (outs m 9 main_v13 c) = _
  rw [V8_eq, outs9]; rfl

def pdats : (p : Fin 3) → (c : Dev nD) → Dat τ (Elt F) Unit ℕ (UR sig nD τ) ℕ (Pipeline.pin (pcfgs (F := F)) adm p) c
  | ⟨0, _⟩ => fun c => dat0 (vr (V4 m)) c
  | ⟨1, _⟩ => fun c => dat1 (vr (X6 m)) c
  | ⟨2, _⟩ => fun c => dat2 (vr (X8 m)) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = vr (X5 m) c (Pipeline.arrRef spec0 w) :=
  match w with
  | ⟨0, _⟩ => ((pdats m 0 c).arrAt_in 0 rfl _).trans (by
    show vr (V4 m) c (Pipeline.arrRef spec0 0) = _
    unfold X5 vr
    exact (Function.update_of_ne (StableHlo.devRef_ne_of_ne (by decide)) _ _).symm)
  | ⟨1, _⟩ => ((pdats m 0 c).arrAt_in 1 rfl _).trans (by
    show vr (V4 m) c (Pipeline.arrRef spec0 1) = _
    unfold X5 vr
    exact (Function.update_of_ne (StableHlo.devRef_ne_of_ne (by decide)) _ _).symm)
  | ⟨2, _⟩ => by
    show (dat0 (vr (V4 m)) c).arrAt 2 cfg0.N = Function.update (V4 m c) (Proc.devRef .tc main_v7) (o5 m c) (Proc.devRef .tc main_v7)
    rw [Function.update_self]; rfl

theorem hrest0 (c : Dev nD) : ∀ b, b ∉ Finset.univ.image (Pipeline.arrRef spec0) → vr (X5 m) c b = vr (V4 m) c b := by
  intro b hb
  unfold X5 vr
  exact Function.update_of_ne (StableHlo.devRef_ne_of_ne fun e => hb (Finset.mem_image.mpr ⟨2, Finset.mem_univ _, e.symm⟩)) _ _

theorem hF1 (c : Dev nD) (w : Fin cfg1.W) : (pdats m 1 c).arrAt w cfg1.N = vr (X7 m) c (Pipeline.arrRef spec1 w) :=
  match w with
  | ⟨0, _⟩ => ((pdats m 1 c).arrAt_in 0 rfl _).trans (by
    show vr (X6 m) c (Pipeline.arrRef spec1 0) = _
    unfold X7 vr
    exact (Function.update_of_ne (StableHlo.devRef_ne_of_ne (by decide)) _ _).symm)
  | ⟨1, _⟩ => ((pdats m 1 c).arrAt_in 1 rfl _).trans (by
    show vr (X6 m) c (Pipeline.arrRef spec1 1) = _
    unfold X7 vr
    exact (Function.update_of_ne (StableHlo.devRef_ne_of_ne (by decide)) _ _).symm)
  | ⟨2, _⟩ => by
    show (dat1 (vr (X6 m)) c).arrAt 2 cfg1.N = Function.update (X6 m c) (Proc.devRef .tc main_v10) (o7 m c) (Proc.devRef .tc main_v10)
    rw [Function.update_self]; rfl

theorem hrest1 (c : Dev nD) : ∀ b, b ∉ Finset.univ.image (Pipeline.arrRef spec1) → vr (X7 m) c b = vr (X6 m) c b := by
  intro b hb
  unfold X7 vr
  exact Function.update_of_ne (StableHlo.devRef_ne_of_ne fun e => hb (Finset.mem_image.mpr ⟨2, Finset.mem_univ _, e.symm⟩)) _ _

theorem hF2 (c : Dev nD) (w : Fin cfg2.W) : (pdats m 2 c).arrAt w cfg2.N = vr (X9 m) c (Pipeline.arrRef spec2 w) :=
  match w with
  | ⟨0, _⟩ => ((pdats m 2 c).arrAt_in 0 rfl _).trans (by
    show vr (X8 m) c (Pipeline.arrRef spec2 0) = _
    unfold X9 vr
    exact (Function.update_of_ne (StableHlo.devRef_ne_of_ne (by decide)) _ _).symm)
  | ⟨1, _⟩ => ((pdats m 2 c).arrAt_in 1 rfl _).trans (by
    show vr (X8 m) c (Pipeline.arrRef spec2 1) = _
    unfold X9 vr
    exact (Function.update_of_ne (StableHlo.devRef_ne_of_ne (by decide)) _ _).symm)
  | ⟨2, _⟩ => by
    show (dat2 (vr (X8 m)) c).arrAt 2 cfg2.N = Function.update (X8 m c) (Proc.devRef .tc main_v13) (o9 m c) (Proc.devRef .tc main_v13)
    rw [Function.update_self]; rfl

theorem hrest2 (c : Dev nD) : ∀ b, b ∉ Finset.univ.image (Pipeline.arrRef spec2) → vr (X9 m) c b = vr (X8 m) c b := by
  intro b hb
  unfold X9 vr
  exact Function.update_of_ne (StableHlo.devRef_ne_of_ne fun e => hb (Finset.mem_image.mpr ⟨2, Finset.mem_univ _, e.symm⟩)) _ _

set_option backward.isDefEq.respectTransparency.types false in
/-- one segment construction for the three regions: they differ only in the pipeline's number, the valuation entered and the valuation left -/
def regOf (p : Fin 3) (lf : Pipeline.LaunchFacts (nD := nD) (τ := τ) cfgs p) (Vin Vout : Dev nD → Valuation τ sig (Elt F))
    (hb : ∀ c, BodyObligation (pdats m p c) (defs₀ (F := F)) 𝒱₀ () Set.univ)
    (hq : ∀ c w, (pdats m p c).q w = fullShare) (howed : ∀ c t, (pdats m p c).owed t = 0)
    (hrec : ∀ c, (pdats m p c).recorded 0 = Set.univ)
    (hA : ∀ c w, (pdats m p c).A w = vr Vin c (Pipeline.arrRef (cfgs p).spec w))
    (hΦ0 : ∀ c, (pdats m p c).Φ 0 = Pipeline.ΦA (cfgs p).spec c)
    (hΦN : ∀ c, (pdats m p c).Φ (Fin.last _) ⊢ (Pipeline.ΦA (cfgs p).spec c : sProp 𝕄))
    (hF : ∀ c w, (pdats m p c).arrAt w (cfgs p).N = vr Vout c (Pipeline.arrRef (cfgs p).spec w))
    (hrest : ∀ c b, b ∉ Finset.univ.image (Pipeline.arrRef (cfgs p).spec) → vr Vout c b = vr Vin c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (vr Vin c)
  hentry c := by
    rw [Pipeline.ownSems0_none]
    have hsplit := Pipeline.arrays_of_unscopedBufs (p := p) (pcfgs (F := F)) adm (pdats m) lf.win lf.arr_whole c
      ((pdats m p c).share_full (hq c)) (vr Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (vr Vin c) (vr Vout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Hand

end
-- ==== Proof.KI.RunCond.lean ====
/-
  The launch of the whole program over its three regions, stated once for whatever the regions' records are: @main is
  four host stretches, region 0, a host stretch, region 1, a host stretch, region 2, a last host stretch. Between two
  items a core holds every unscoped buffer at a named valuation; the last one is read against the final memory. This
  module states the run with the two RESULT buffers read off that last valuation beside the three arguments.
-/
import proofs.«425186_j76596446757483_2_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in
/-- THE RUN, GIVEN THE REGIONS' RECORDS, WITH THE RESULTS READ. For any rest states the launch makes on every core and that end
    owing nothing, any contents the regions leave (`outs`) and any proof data: given, per region, a segment record
    entered from the thread state before it and left at the one after it, every weakly fair execution of @main from
    memory `m` with zero counters terminates, and every final memory holds the two results at the last valuation
    (what the host operations after the last region make of the regions' outputs) and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c)) :
    θ_run defs (onTc (τ := τ) (main (F := F))) ⟨m, fun _ => 0, ρ⟩ (fun r => ∀ c : Dev nD,
      r.2.mem ((c.tc : Thread nD τ).loc main_v9) = V10 m outs c main_v9
      ∧ r.2.mem ((c.tc : Thread nD τ).loc main_v18) = V10 m outs c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, .rfl, hpre0 c, hpost0 c, hpre1 c, hpost1 c, hpre2 c, hpost2 c, sep_mono .rfl (hE3 c)⟩)
    (hinit := ?_) (QY := fun c s => s.mem ((c.tc : Thread nD τ).loc main_v9) = V10 m outs c main_v9 ∧ s.mem ((c.tc : Thread nD τ).loc main_v18) = V10 m outs c main_v18 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        h (Proc.devRef .tc main_v18) (Finset.mem_filter.mpr ⟨StableHlo.devRef_mem_tcRefs main_v18, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c)⟩
    · iexact HSI

end Cert.KernelIdeal.Hand

end
-- ==== Proof.KI.Main.lean ====
import proofs.«425186_j76596446757483_2_alg».proof.Proof.KI.Launch
import proofs.«425186_j76596446757483_2_alg».proof.Proof.KI.RunCond

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v9) = V10 m (outs m) c main_v9
      ∧ r.2.mem ((c.tc : Thread nD τ).loc main_v18) = V10 m (outs m) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (regOf m 0 launch0 (V4 m) (X5 m) (body_obligation0 (vr (V4 m))) (fun _ _ => rfl) (fun _ _ => rfl) (fun _ => rfl) (fun _ _ => rfl) (fun _ => rfl)
      (fun c => Phi0_out (vr (V4 m)) c cfg0.N (le_refl _)) (hF0 m) (hrest0 m)) (fun c => .rfl) (fun c => by rw [V5_eq]; exact .rfl)
    (regOf m 1 launch1 (X6 m) (X7 m) (body_obligation1 (vr (X6 m))) (fun _ _ => rfl) (fun _ _ => rfl) (fun _ => rfl) (fun _ _ => rfl) (fun _ => rfl)
      (fun c => Phi1_out (vr (X6 m)) c cfg1.N (le_refl _)) (hF1 m) (hrest1 m)) (fun c => by rw [V6_eq]; exact .rfl) (fun c => by rw [V7_eq]; exact .rfl)
    (regOf m 2 launch2 (X8 m) (X9 m) (body_obligation2 (vr (X8 m))) (fun _ _ => rfl) (fun _ _ => rfl) (fun _ => rfl) (fun _ _ => rfl) (fun _ => rfl)
      (fun c => Phi2_out (vr (X8 m)) c cfg2.N (le_refl _)) (hF2 m) (hrest2 m)) (fun c => by rw [V8_eq]; exact .rfl) (fun c => by rw [V9_eq]; exact .rfl)

end Cert.KernelIdeal.Hand

end
-- ==== Proof.KI.Chunk.lean ====
import proofs.«425186_j76596446757483_2_alg».proof.KernelIdeal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Idealize.ShloMosaic Idealize.ShloMosaic.ValueIdx

variable {F : FTy → Type} [FloatOps F]
variable [Cert.KernelIdeal.Facts]
open Cert.KernelIdeal.Facts₀ Cert.KernelIdeal.Facts

/-- the 4096 × 256 matrix with 1 at (r, j) when the word `base + j` is `idx r`, else 0, in the table's float format -/
def onehotRows (base : BitVec 32) (idx : IVec S4096x1 32) : FVec F S4096x256 .bf16 :=
  truncf .bf16 (sitofp .f32 (extui 32 (cmpi .eq
    (broadcastTo S4096x256 (addi (broadcast S1x256 base) (iota .tc S1x256 32 [1] iota_S1x256_d1_w32)) broadcasts_S1x256_S4096x256)
    (broadcastTo S4096x256 idx broadcasts_S4096x1_S4096x256)) natLt_1_32)) bitsLt_bf16_f32

/-- one sub-tile's update: the accumulator plus (difference of two such matrices) times the 256 × 16 tile -/
def chunk (base : BitVec 32) (ia ib : IVec S4096x1 32) (tile : FVec F S256x16 .bf16) (s : FVec F S4096x16 .f32) : FVec F S4096x16 .f32 :=
  shapeCast S4096x16 (addf s (matmul dot_S4096x256_S256x16_S4096x16_1_0_0_1_n_n none (subf (onehotRows base ia) (onehotRows base ib)) tile (constant S4096x16 .f32 0x00000000#32))) shapeCasts_S4096x16_S4096x16

/-- 1 when the two words are equal, else 0 -/
def hit (w v : BitVec 32) : EReal := if w = v then 1 else 0

/-- The one-bit result of the word comparison, widened and converted to a float, is that 1 or 0. -/
theorem cmpi_eq_toReal (w v : BitVec 32) :
    (((((IntOp.cmpi .eq w v).setWidth 32).toInt : ℝ)) : EReal) = hit w v := by
  show (((((BitVec.ofBool (decide (w = v))).setWidth 32).toInt : ℝ)) : EReal) = if w = v then 1 else 0
  by_cases h : w = v
  · rw [if_pos h, decide_eq_true h, show ((BitVec.ofBool true).setWidth 32).toInt = 1 by decide]
    norm_cast
  · rw [if_neg h, decide_eq_false h, show ((BitVec.ofBool false).setWidth 32).toInt = 0 by decide]
    norm_cast

theorem onehotRows_apply (base : BitVec 32) (idx : IVec S4096x1 32) (r : Fin 4096) (j : Fin 256) :
    onehotRows (F := Ideal) base idx (ix2 r j)
      = hit (base + BitVec.ofNat 32 j.val) (idx (ix2 r (0 : Fin 1))) := by
  have hrow : broadcastTo S4096x256 (addi (broadcast S1x256 base) (iota .tc S1x256 32 [1] iota_S1x256_d1_w32))
      broadcasts_S1x256_S4096x256 (ix2 r j) = base + BitVec.ofNat 32 j.val := by
    rw [broadcastTo_1b_ab_apply]
    show IntOp.addi base (iota .tc S1x256 32 [1] iota_S1x256_d1_w32 (ix2 (0 : Fin 1) j)) = _
    rw [iota_single_apply]
    rfl
  have hcol : broadcastTo S4096x256 idx broadcasts_S4096x1_S4096x256 (ix2 r j) = idx (ix2 r (0 : Fin 1)) :=
    broadcastTo_apply idx _ (ix2 r j) (ix2 r (0 : Fin 1)) fun ax => by
      match ax with
      | ⟨0, _⟩ => rfl
      | ⟨1, _⟩ => rfl
  show (((((IntOp.cmpi .eq _ _).setWidth 32).toInt : ℝ)) : EReal) = _
  rw [hrow, hcol, cmpi_eq_toReal]

/-- The product at (r, col): one contracted axis of extent 256, the operands read at (r, j) and (j, col). -/
theorem matmul_zero_apply (lhs : FVec Ideal S4096x256 .bf16) (rhs : FVec Ideal S256x16 .bf16)
    (r : Fin 4096) (col : Fin 16) :
    matmul dot_S4096x256_S256x16_S4096x16_1_0_0_1_n_n none lhs rhs (constant S4096x16 .f32 0x00000000#32) (ix2 r col)
      = ∑ j : Fin 256, lhs (ix2 r j) * rhs (ix2 j col) := by
  show FloatOps.matmul dot_S4096x256_S256x16_S4096x16_1_0_0_1_n_n none lhs rhs (constant S4096x16 .f32 0x00000000#32) (ix2 r col) = _
  rw [Ideal.matmul_constant_zero_apply, ← Equiv.sum_comp (contrEquiv1 dot_S4096x256_S256x16_S4096x16_1_0_0_1_n_n 256 rfl rfl).symm]
  refine Finset.sum_congr rfl fun c _ => ?_
  have c2 := contrEquiv1_symm_val dot_S4096x256_S256x16_S4096x16_1_0_0_1_n_n 256 rfl rfl c
  have l2 : dot_S4096x256_S256x16_S4096x16_1_0_0_1_n_n.lhsIdx (ix2 r col) ((contrEquiv1 dot_S4096x256_S256x16_S4096x16_1_0_0_1_n_n 256 rfl rfl).symm c) = ix2 r c :=
    Shape.idx_ext₂ (by simp [DotDims.lhsIdx, dot_S4096x256_S256x16_S4096x16_1_0_0_1_n_n]; rfl) ((DotDims.lhsIdx_val_of_single _ rfl _ _).trans c2)
  have r2 : dot_S4096x256_S256x16_S4096x16_1_0_0_1_n_n.rhsIdx (ix2 r col) ((contrEquiv1 dot_S4096x256_S256x16_S4096x16_1_0_0_1_n_n 256 rfl rfl).symm c) = ix2 c col :=
    Shape.idx_ext₂ ((DotDims.rhsIdx_val_of_single _ rfl _ _).trans c2) (by simp [DotDims.rhsIdx, dot_S4096x256_S256x16_S4096x16_1_0_0_1_n_n]; rfl)
  rw [l2, r2]

theorem chunk_apply (base : BitVec 32) (ia ib : IVec S4096x1 32) (tile : FVec Ideal S256x16 .bf16)
    (s : FVec Ideal S4096x16 .f32) (r : Fin 4096) (col : Fin 16) :
    chunk (F := Ideal) base ia ib tile s (ix2 r col)
      = s (ix2 r col) + ∑ j : Fin 256, (hit (base + BitVec.ofNat 32 j.val) (ia (ix2 r (0 : Fin 1)))
          - hit (base + BitVec.ofNat 32 j.val) (ib (ix2 r (0 : Fin 1)))) * tile (ix2 j col) := by
  unfold chunk
  rw [shapeCast_self, addf_apply, matmul_zero_apply]
  refine congrArg (s (ix2 r col) + ·) (Finset.sum_congr rfl fun j _ => ?_)
  rw [subf_apply, onehotRows_apply, onehotRows_apply]

end Cert.KernelIdeal.Hand
-- ==== Proof.KI.Sweep.lean ====
import proofs.«425186_j76596446757483_2_alg».proof.Proof.KI.Chunk
import proofs.«425186_j76596446757483_2_alg».proof.Proof.Gen.KernelIdeal.Skeleton
import Idealize.ShloMosaic.Lib.Pipeline.FrameBody

noncomputable section

open scoped BigOperators

namespace Cert.KernelIdeal.Hand

open Cert.KernelIdeal Idealize.ShloMosaic Idealize.ShloMosaic.ValueIdx Cert.KernelIdeal.Gen

variable {F : FTy → Type} [FloatOps F]

theorem hz : (![0, 0] : Fin 2 → Nat) = fun _ => 0 := funext fun a => by fin_cases a <;> rfl

theorem inb256 {o : ℕ} (h : o + 256 ≤ 4096) (ax : Fin 2) : (![o, 0] : Fin 2 → ℕ) ax + S256x16.size ax ≤ S4096x16.size ax := by
  match ax with
  | ⟨0, _⟩ => exact h
  | ⟨1, _⟩ => exact Nat.le_refl 16

/-- one sub-tile's update: rows `o` … `o + 255` of the table block, against the row numbers `tb + o` … -/
def upd (tb : BitVec 32) (a b : IVec S4096x1 32) (x1 : Vec F S4096x16 .bf16) (o : ℕ) (h : o + 256 ≤ 4096)
    (acc : FVec F S4096x16 .f32) : FVec F S4096x16 .f32 :=
  chunk (Scalar.addi tb (BitVec.ofNat 32 o)) a b
    (shapeCast S256x16 (View.ld (Val := Elt F) x1 (Rect.unit (s := S4096x16) ![o, 0] S256x16.size (inb256 h)) : Vec F S256x16 .bf16)
      shapeCasts_S256x16_S256x16) acc

/-- the first `k` sub-tile updates of a grid point, rows 0 … 255 first -/
def sweepTo (tb : BitVec 32) (a b : IVec S4096x1 32) (x1 : Vec F S4096x16 .bf16) (xs : FVec F S4096x16 .f32) :
    (k : ℕ) → k ≤ 16 → FVec F S4096x16 .f32
  | 0, _ => xs
  | k + 1, h => upd tb a b x1 (256 * k) (by omega) (sweepTo tb a b x1 xs k (by omega))

/-- one grid point: all sixteen updates -/
def sweep (tb : BitVec 32) (a b : IVec S4096x1 32) (x1 : Vec F S4096x16 .bf16) (xs : FVec F S4096x16 .f32) :
    FVec F S4096x16 .f32 := sweepTo tb a b x1 xs 16 (Nat.le_refl 16)

/-- Entry (j, col) of the 256-row tile from row `o` of the table block is the block's entry (o + j, col). -/
theorem tile_apply (x1 : Vec F S4096x16 .bf16) {o : ℕ} (ho : o + 256 ≤ 4096) (j : Fin 256) (col : Fin 16) (h : o + j.val < 4096) :
    shapeCast S256x16 (View.ld (Val := Elt F) x1 (Rect.unit (s := S4096x16) ![o, 0] S256x16.size (inb256 ho)) : Vec F S256x16 .bf16)
      shapeCasts_S256x16_S256x16 (ix2 j col) = x1 (ix2 ⟨o + j.val, h⟩ col) := by
  refine (congrFun (shapeCast_self (s := S256x16) _ _) _).trans (congrArg x1 (Shape.idx_ext₂
    (by show o + 1 * j.val = o + j.val; rw [Nat.one_mul])
    (by show 0 + 1 * col.val = col.val; rw [Nat.one_mul, Nat.zero_add])))

theorem addi_ofNat (tb : BitVec 32) (o j : ℕ) :
    Scalar.addi tb (BitVec.ofNat 32 o) + BitVec.ofNat 32 j = tb + BitVec.ofNat 32 (o + j) := by
  show tb + BitVec.ofNat 32 o + BitVec.ofNat 32 j = _
  rw [BitVec.add_assoc, ← BitVec.ofNat_add]

/-- the summand of row `n` of the table block for the index words `wa`, `wb` (zero past its 4096 rows) -/
def gterm (tb wa wb : BitVec 32) (x1 : Vec Ideal S4096x16 .bf16) (col : Fin 16) (n : ℕ) : EReal :=
  if h : n < 4096 then (hit (tb + BitVec.ofNat 32 n) wa - hit (tb + BitVec.ofNat 32 n) wb) * x1 (ix2 ⟨n, h⟩ col) else 0

theorem upd_apply (tb : BitVec 32) (a b : IVec S4096x1 32) (x1 : Vec Ideal S4096x16 .bf16) {o : ℕ} (ho : o + 256 ≤ 4096)
    (acc : FVec Ideal S4096x16 .f32) (r : Fin 4096) (col : Fin 16) :
    upd (F := Ideal) tb a b x1 o ho acc (ix2 r col)
      = acc (ix2 r col) + ∑ j : Fin 256, gterm tb (a (ix2 r (0 : Fin 1))) (b (ix2 r (0 : Fin 1))) x1 col (o + j.val) := by
  unfold upd
  rw [chunk_apply]
  refine congrArg (acc (ix2 r col) + ·) (Finset.sum_congr rfl fun j _ => ?_)
  have hj : o + j.val < 4096 := by have := j.isLt; omega
  rw [tile_apply x1 ho j col hj, addi_ofNat, gterm, dif_pos hj]

/-- After `k` updates, entry (r, col) is the start value plus the summands of rows 0 … 256 k - 1. -/
theorem sweepTo_apply (tb : BitVec 32) (a b : IVec S4096x1 32) (x1 : Vec Ideal S4096x16 .bf16)
    (xs : FVec Ideal S4096x16 .f32) (r : Fin 4096) (col : Fin 16) : ∀ (k : ℕ) (h : k ≤ 16),
    sweepTo (F := Ideal) tb a b x1 xs k h (ix2 r col)
      = xs (ix2 r col) + ∑ n ∈ Finset.range (256 * k), gterm tb (a (ix2 r (0 : Fin 1))) (b (ix2 r (0 : Fin 1))) x1 col n
  | 0, _ => by rw [Nat.mul_zero, Finset.sum_range_zero, add_zero]; rfl
  | k + 1, h => by
    rw [Nat.mul_add_one, Finset.sum_range_add, ← add_assoc, ← sweepTo_apply tb a b x1 xs r col k (by omega), Finset.sum_range]
    exact upd_apply tb a b x1 _ _ r col

/-- All sixteen updates at (r, col): the start value plus ONE sum over the 4096 rows of the table block. -/
theorem sweep_apply (tb : BitVec 32) {a b : IVec S4096x1 32} (x1 : Vec Ideal S4096x16 .bf16)
    (xs : FVec Ideal S4096x16 .f32) (r : Fin 4096) (col : Fin 16) {wa wb : BitVec 32}
    (ha : a (ix2 r (0 : Fin 1)) = wa) (hb : b (ix2 r (0 : Fin 1)) = wb) :
    sweep (F := Ideal) tb a b x1 xs (ix2 r col)
      = xs (ix2 r col) + ∑ n : Fin 4096, (hit (tb + BitVec.ofNat 32 n.val) wa - hit (tb + BitVec.ofNat 32 n.val) wb) * x1 (ix2 n col) := by
  subst ha hb
  refine (sweepTo_apply tb a b x1 xs r col 16 _).trans (congrArg (xs (ix2 r col) + ·) ?_)
  refine (Finset.sum_range (n := 4096) _).trans (Finset.sum_congr rfl fun n _ => ?_)
  rw [gterm, dif_pos n.isLt]
/-- From the zeros a sweep's first point stores, the sum alone. -/
theorem sweep_zero_apply (tb : BitVec 32) {a b : IVec S4096x1 32} (x1 : Vec Ideal S4096x16 .bf16)
    (r : Fin 4096) (col : Fin 16) {wa wb : BitVec 32} (ha : a (ix2 r (0 : Fin 1)) = wa) (hb : b (ix2 r (0 : Fin 1)) = wb) :
    sweep (F := Ideal) tb a b x1 k0_pay3 (ix2 r col)
      = ∑ n : Fin 4096, (hit (tb + BitVec.ofNat 32 n.val) wa - hit (tb + BitVec.ofNat 32 n.val) wb) * x1 (ix2 n col) := by
  rw [sweep_apply tb x1 _ r col ha hb, k0_pay3, shapeCast_self]
  exact (congrArg (· + _) Ideal.ofBits_zero_f32).trans (zero_add _)

/-- The norm payload: per row, the root of the sum over d < 8 of the squares of `v (r, d) + v (r, 8 + d)`. -/
theorem norm_apply (v : Vec Ideal S4096x16 .f32) (r : Fin 4096) :
    k0_pay2 (F := Ideal) v (ix2 r (0 : Fin 1))
      = Ideal.sqrt (∑ d : Fin 8, (v (ix2 r (⟨d.val, by omega⟩ : Fin 16)) + v (ix2 r (⟨d.val + 8, by omega⟩ : Fin 16)))
          * (v (ix2 r (⟨d.val, by omega⟩ : Fin 16)) + v (ix2 r (⟨d.val + 8, by omega⟩ : Fin 16)))) := by
  unfold k0_pay2
  show Ideal.sqrt (shapeCast S4096x1 _ shapeCasts_S4096_S4096x1 (ix2 r (0 : Fin 1))) = _
  refine congrArg Ideal.sqrt ?_
  refine (shapeCast_apply _ shapeCasts_S4096_S4096x1 (ix2 r (0 : Fin 1)) (ix1 r) (by
    rw [Shape.rowMajor_val_one, Shape.rowMajor_val_two]
    show r.val = r.val * 1 + 0
    omega)).trans ?_
  refine (Ideal.multiReduction_add_single _ _ reduces_S4096x8_S4096 _ _ (ix1 r)).trans ?_
  refine Finset.sum_congr rfl fun (d : Fin 8) _ => ?_
  have hl : reduces_S4096x8_S4096.lift (ix1 r) d = ix2 r d := Shape.idx_ext₂ rfl rfl
  rw [hl, mulf_apply, addf_apply]
  rw [slice2_axis1_apply 0 v _ r d (⟨d.val, by omega⟩ : Fin 16) (by show d.val = 0 + d.val; omega),
    slice2_axis1_apply 8 v _ r d (⟨d.val + 8, by omega⟩ : Fin 16) (by show d.val + 8 = 8 + d.val; omega)]

end Cert.KernelIdeal.Hand
-- ==== Proof.KI.R0Acc.lean ====
import proofs.«425186_j76596446757483_2_alg».proof.Proof.KI.R0Dat
import proofs.«425186_j76596446757483_2_alg».proof.Proof.KI.Sweep

noncomputable section

open scoped BigOperators

namespace Cert.KernelIdeal.Hand

open Cert.KernelIdeal Idealize.ShloMosaic Idealize.ShloMosaic.ValueIdx
open Idealize.ShloMosaic.TcCoe Idealize.ShloMosaic.Tactic
open Cert.KernelIdeal.Gen

/-- the table tile's first row number at a grid point: 4096 times the point's second coordinate, as a word -/
def tileBase0 (i : grid0.Coords) : BitVec 32 := Scalar.muli (BitVec.ofNat 32 (i 1).val) 4096#32

section
variable (c : Dev nD) (i : grid0.Coords)
  (arg2 : Memref sig .tc .vmem S4096x2 .i32) (harg2 : arg2.IsWhole) (arg3 : Memref sig .tc .vmem S4096x16 .bf16) (harg3 : arg3.IsWhole)
  (arg4 : Memref sig .tc .vmem S4096x1 .f32) (harg4 : arg4.IsWhole) (arg5 : Memref sig .tc .vmem S4096x16 .f32) (harg5 : arg5.IsWhole)

section
variable {F : FTy → Type} [FloatOps F] (x0 : Vec F S4096x2 .i32) (x1 : Vec F S4096x16 .bf16) (xs : Vec F S4096x16 .f32)

theorem k0_pay5_apply (r : Fin 4096) : k0_pay5 x0 (ix2 r (0 : Fin 1)) = x0 (ix2 r (0 : Fin 2)) := by
  unfold k0_pay5 k0_pay4
  rw [shapeCast_self]
  exact slice2_axis1_apply _ x0 _ r (0 : Fin 1) (0 : Fin 2) rfl

theorem k0_pay6_apply (r : Fin 4096) : k0_pay6 x0 (ix2 r (0 : Fin 1)) = x0 (ix2 r (1 : Fin 2)) := by
  unfold k0_pay6 k0_pay4
  rw [shapeCast_self]
  exact slice2_axis1_apply _ x0 _ r (0 : Fin 1) (1 : Fin 2) rfl

/-- Each load of the accumulator reads the payload stored before it; the sixteen payloads are the sixteen updates. -/
theorem accMid0_eq (hc0 : ¬first0 i) (hc1 : ¬last0 i) :
    accMid0 c i arg2 harg2 arg3 harg3 arg4 harg4 arg5 harg5 hc0 hc1 x0 x1 xs = sweep (tileBase0 i) (k0_pay5 x0) (k0_pay6 x0) x1 xs := by
  refine (View.read_writes_eq_canon _ _ _ (coverMid0 c i arg2 harg2 arg3 harg3 arg4 harg4 arg5 harg5 hc0 hc1 x0 x1 xs)).trans ?_
  unfold run0_mid
  sl_unfold_words
  simp only [↓ View.canon_cons_unit_zero (S := S4096x16) hz, ↓ View.readCov_cons_toLoadRect,
    View.readAt_eq_ld, harg2.read_unread, harg3.read_unread, harg5.read_unread,
    View.ld_unit_zero (S := S4096x2) hz, View.ld_unit_zero (S := S4096x16) hz]
  rfl

theorem accLast0_eq (hc0 : ¬first0 i) (hc1 : last0 i) :
    accLast0 c i arg2 harg2 arg3 harg3 arg4 harg4 arg5 harg5 hc0 hc1 x0 x1 xs = sweep (tileBase0 i) (k0_pay5 x0) (k0_pay6 x0) x1 xs := by
  refine (View.read_writes_eq_canon _ _ _ (coverAccLast0 c i arg2 harg2 arg3 harg3 arg4 harg4 arg5 harg5 hc0 hc1 x0 x1 xs)).trans ?_
  unfold run0_last
  sl_unfold_words
  simp only [↓ View.canon_cons_unit_zero (S := S4096x16) hz, ↓ View.readCov_cons_toLoadRect,
    View.readAt_eq_ld, harg2.read_unread, harg3.read_unread, harg5.read_unread,
    View.ld_unit_zero (S := S4096x2) hz, View.ld_unit_zero (S := S4096x16) hz]
  rfl

theorem accFirst0_eq (hc0 : first0 i) (hc1 : ¬last0 i) :
    accFirst0 c i arg2 harg2 arg3 harg3 arg4 harg4 arg5 harg5 hc0 hc1 x0 x1 = sweep (tileBase0 i) (k0_pay5 x0) (k0_pay6 x0) x1 k0_pay3 := by
  refine (View.read_writes_eq_canon _ _ _ (coverFirst0 c i arg2 harg2 arg3 harg3 arg4 harg4 arg5 harg5 hc0 hc1 x0 x1)).trans ?_
  unfold run0_first
  sl_unfold_words
  simp only [↓ View.canon_cons_unit_zero (S := S4096x16) hz, ↓ View.readCov_cons_toLoadRect,
    View.readAt_eq_ld, harg2.read_unread, harg3.read_unread,
    View.ld_unit_zero (S := S4096x2) hz]
  rfl

theorem outLast0_eq (hc0 : ¬first0 i) (hc1 : last0 i) :
    outLast0 c i arg2 harg2 arg3 harg3 arg4 harg4 arg5 harg5 hc0 hc1 x0 x1 xs = k0_pay2 (sweep (tileBase0 i) (k0_pay5 x0) (k0_pay6 x0) x1 xs) := by
  refine (View.read_writes_eq_canon _ _ _ (coverOutLast0 c i arg2 harg2 arg3 harg3 arg4 harg4 arg5 harg5 hc0 hc1 x0 x1 xs)).trans ?_
  unfold run0_last
  sl_unfold_words
  simp only [↓ View.canon_unit_zero (S := S4096x1) hz, ↓ View.readCov_cons_toLoadRect,
    View.readAt_eq_ld, harg2.read_unread, harg3.read_unread, harg5.read_unread,
    View.ld_unit_zero (S := S4096x2) hz, View.ld_unit_zero (S := S4096x16) hz]
  rfl

end

theorem accMid0_apply (hc0 : ¬first0 i) (hc1 : ¬last0 i) (x0 : Vec Ideal S4096x2 .i32) (x1 : Vec Ideal S4096x16 .bf16) (xs : Vec Ideal S4096x16 .f32)
    (r : Fin 4096) (col : Fin 16) :
    accMid0 (F := Ideal) c i arg2 harg2 arg3 harg3 arg4 harg4 arg5 harg5 hc0 hc1 x0 x1 xs (ix2 r col)
      = xs (ix2 r col) + ∑ n : Fin 4096, (hit (tileBase0 i + BitVec.ofNat 32 n.val) (x0 (ix2 r (0 : Fin 2)))
          - hit (tileBase0 i + BitVec.ofNat 32 n.val) (x0 (ix2 r (1 : Fin 2)))) * x1 (ix2 n col) := by
  rw [accMid0_eq]
  exact sweep_apply _ x1 xs r col (k0_pay5_apply x0 r) (k0_pay6_apply x0 r)

theorem accLast0_apply (hc0 : ¬first0 i) (hc1 : last0 i) (x0 : Vec Ideal S4096x2 .i32) (x1 : Vec Ideal S4096x16 .bf16) (xs : Vec Ideal S4096x16 .f32)
    (r : Fin 4096) (col : Fin 16) :
    accLast0 (F := Ideal) c i arg2 harg2 arg3 harg3 arg4 harg4 arg5 harg5 hc0 hc1 x0 x1 xs (ix2 r col)
      = xs (ix2 r col) + ∑ n : Fin 4096, (hit (tileBase0 i + BitVec.ofNat 32 n.val) (x0 (ix2 r (0 : Fin 2)))
          - hit (tileBase0 i + BitVec.ofNat 32 n.val) (x0 (ix2 r (1 : Fin 2)))) * x1 (ix2 n col) := by
  rw [accLast0_eq]
  exact sweep_apply _ x1 xs r col (k0_pay5_apply x0 r) (k0_pay6_apply x0 r)

theorem accFirst0_apply (hc0 : first0 i) (hc1 : ¬last0 i) (x0 : Vec Ideal S4096x2 .i32) (x1 : Vec Ideal S4096x16 .bf16) (r : Fin 4096) (col : Fin 16) :
    accFirst0 (F := Ideal) c i arg2 harg2 arg3 harg3 arg4 harg4 arg5 harg5 hc0 hc1 x0 x1 (ix2 r col)
      = ∑ n : Fin 4096, (hit (tileBase0 i + BitVec.ofNat 32 n.val) (x0 (ix2 r (0 : Fin 2)))
          - hit (tileBase0 i + BitVec.ofNat 32 n.val) (x0 (ix2 r (1 : Fin 2)))) * x1 (ix2 n col) := by
  rw [accFirst0_eq]
  exact sweep_zero_apply _ x1 r col (k0_pay5_apply x0 r) (k0_pay6_apply x0 r)

theorem outLast0_apply (hc0 : ¬first0 i) (hc1 : last0 i) (x0 : Vec Ideal S4096x2 .i32) (x1 : Vec Ideal S4096x16 .bf16) (xs : Vec Ideal S4096x16 .f32) (r : Fin 4096) :
    outLast0 (F := Ideal) c i arg2 harg2 arg3 harg3 arg4 harg4 arg5 harg5 hc0 hc1 x0 x1 xs (ix2 r (0 : Fin 1))
      = Ideal.sqrt (∑ d : Fin 8,
          (accLast0 (F := Ideal) c i arg2 harg2 arg3 harg3 arg4 harg4 arg5 harg5 hc0 hc1 x0 x1 xs (ix2 r (⟨d.val, by omega⟩ : Fin 16))
            + accLast0 (F := Ideal) c i arg2 harg2 arg3 harg3 arg4 harg4 arg5 harg5 hc0 hc1 x0 x1 xs (ix2 r (⟨d.val + 8, by omega⟩ : Fin 16)))
          * (accLast0 (F := Ideal) c i arg2 harg2 arg3 harg3 arg4 harg4 arg5 harg5 hc0 hc1 x0 x1 xs (ix2 r (⟨d.val, by omega⟩ : Fin 16))
            + accLast0 (F := Ideal) c i arg2 harg2 arg3 harg3 arg4 harg4 arg5 harg5 hc0 hc1 x0 x1 xs (ix2 r (⟨d.val + 8, by omega⟩ : Fin 16)))) := by
  rw [outLast0_eq, accLast0_eq]
  exact norm_apply _ r

end

end Cert.KernelIdeal.Hand
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def row (w : BitVec 32) : Fin 65536 := ⟨w.toNat % 65536, Nat.mod_lt _ (by norm_num)⟩

theorem row_val_of_lt {w : BitVec 32} (h : w.toNat < 65536) : (row w).val = w.toNat := Nat.mod_eq_of_lt h

def dist (P : (⟨2, ![65536, 8]⟩ : Shape).Idx → EReal) (a b : Fin 65536) : EReal :=
  Ideal.sqrt (∑ d : Fin 8, (P (ix2 a d) - P (ix2 b d)) * (P (ix2 a d) - P (ix2 b d)))

def deaths (P : (⟨2, ![65536, 8]⟩ : Shape).Idx → EReal) (A1 : (⟨2, ![65535, 2]⟩ : Shape).Idx → BitVec 32) :
    (⟨1, ![65535]⟩ : Shape).Idx → EReal :=
  fun i => dist P (row (A1 (ix2 (i 0 : Fin 65535) (0 : Fin 2)))) (row (A1 (ix2 (i 0 : Fin 65535) (1 : Fin 2))))

def dgm1 (P : (⟨2, ![65536, 8]⟩ : Shape).Idx → EReal) (A2 : (⟨2, ![2000000, 4]⟩ : Shape).Idx → BitVec 32) :
    (⟨2, ![2000000, 2]⟩ : Shape).Idx → EReal :=
  fun j =>
    if (j 1 : Fin 2).val = 0 then
      dist P (row (A2 (ix2 (j 0 : Fin 2000000) (0 : Fin 4)))) (row (A2 (ix2 (j 0 : Fin 2000000) (1 : Fin 4))))
    else
      dist P (row (A2 (ix2 (j 0 : Fin 2000000) (2 : Fin 4)))) (row (A2 (ix2 (j 0 : Fin 2000000) (3 : Fin 4))))

end Cert.Spec

end
-- ==== Proof.LibOneHot.lean ====
import Mathlib.Data.EReal.Basic
import Mathlib.Data.EReal.Operations
import Mathlib.Algebra.BigOperators.Fin
import Mathlib.Algebra.BigOperators.Group.Finset.Piecewise
import Mathlib.Data.Fintype.BigOperators
import Mathlib.Logic.Equiv.Fin.Basic
import Mathlib.Tactic.Ring

namespace Cert.LibOneHot

open Finset

def IsReal (x : EReal) : Prop := ∃ r : ℝ, x = (r : EReal)

/-- x - x = 0 fails at the infinities and holds for a real number. -/
theorem sub_self_of_isReal {x : EReal} (h : IsReal x) : x - x = 0 := by
  obtain ⟨r, rfl⟩ := h
  rw [← EReal.coe_sub, sub_self, EReal.coe_zero]

theorem coe_sum {ι : Type*} (s : Finset ι) (f : ι → ℝ) :
    ((∑ n ∈ s, f n : ℝ) : EReal) = ∑ n ∈ s, (f n : EReal) := by
  classical
  induction s using Finset.induction_on with
  | empty => simp
  | insert a s ha ih =>
    rw [Finset.sum_insert ha, Finset.sum_insert ha, EReal.coe_add, ih]

/-- A one-hot difference row times a real column is the difference of the two picked entries (computed in the reals). -/
theorem sum_onehot_sub {ι : Type*} [Fintype ι] [DecidableEq ι] (x : ι → EReal)
    (hx : ∀ n, IsReal (x n)) (a b : ι) :
    ∑ n, ((if n = a then (1 : EReal) else 0) - (if n = b then (1 : EReal) else 0)) * x n
      = x a - x b := by
  choose r hr using hx
  have key : ∀ n,
      ((if n = a then (1 : EReal) else 0) - (if n = b then (1 : EReal) else 0)) * x n
        = ((((if n = a then (1 : ℝ) else 0) - (if n = b then (1 : ℝ) else 0)) * r n : ℝ) :
            EReal) := by
    intro n
    rw [hr n, EReal.coe_mul, EReal.coe_sub]
    congr 2 <;> split_ifs <;> simp
  rw [Finset.sum_congr rfl (fun n _ => key n), ← coe_sum, hr a, hr b, ← EReal.coe_sub]
  congr 1
  simp [sub_mul, Finset.sum_sub_distrib]

end Cert.LibOneHot
-- ==== Proof.GatherLaw.lean ====
import proofs.«425186_j76596446757483_2_alg».proof.Proof.Spec
import proofs.«425186_j76596446757483_2_alg».proof.Proof.LibOneHot

noncomputable section

open scoped BigOperators

namespace Cert.GatherLaw

open Idealize.ShloMosaic Idealize.ShloMosaic.ValueIdx Cert.LibOneHot Cert.Spec

def hit (w v : BitVec 32) : EReal := if w = v then 1 else 0

theorem ofNat_eq_iff (n : Fin 65536) (w : BitVec 32) (hw : w.toNat < 65536) :
    BitVec.ofNat 32 n.val = w ↔ n = row w := by
  constructor
  · intro h
    apply Fin.ext
    rw [row_val_of_lt hw, ← h, BitVec.toNat_ofNat]
    exact (Nat.mod_eq_of_lt (by have := n.isLt; omega)).symm
  · intro h
    apply BitVec.eq_of_toNat_eq
    rw [BitVec.toNat_ofNat, h, row_val_of_lt hw]
    exact Nat.mod_eq_of_lt (by omega)

theorem hit_ofNat (n : Fin 65536) (w : BitVec 32) (hw : w.toNat < 65536) :
    hit (BitVec.ofNat 32 n.val) w = if n = row w then (1 : EReal) else 0 := by
  unfold hit
  by_cases h : n = row w
  · rw [if_pos h, if_pos ((ofNat_eq_iff n w hw).mpr h)]
  · rw [if_neg h, if_neg (fun e => h ((ofNat_eq_iff n w hw).mp e))]

theorem sum_rows (x : Fin 65536 → EReal) (hx : ∀ n, IsReal (x n)) (wa wb : BitVec 32)
    (ha : wa.toNat < 65536) (hb : wb.toNat < 65536) :
    ∑ n : Fin 65536, (hit (BitVec.ofNat 32 n.val) wa - hit (BitVec.ofNat 32 n.val) wb) * x n = x (row wa) - x (row wb) := by
  rw [← sum_onehot_sub x hx (row wa) (row wb)]
  exact Finset.sum_congr rfl fun n _ => by rw [hit_ofNat n wa ha, hit_ofNat n wb hb]

theorem sum_rows_zero (x : Fin 65536 → EReal) (hx : ∀ n, x n = 0) (wa wb : BitVec 32) :
    ∑ n : Fin 65536, (hit (BitVec.ofNat 32 n.val) wa - hit (BitVec.ofNat 32 n.val) wb) * x n = 0 := by
  refine Finset.sum_eq_zero fun n _ => ?_
  rw [hx n, mul_zero]

theorem dist_of_columns (P : (⟨2, ![65536, 8]⟩ : Shape).Idx → EReal) (a b : Fin 65536)
    (A B : Fin 8 → EReal) (hA : ∀ d, A d = P (ix2 a d) - P (ix2 b d)) (hB : ∀ d, B d = 0) :
    Ideal.sqrt (∑ d : Fin 8, (A d + B d) * (A d + B d)) = Cert.Spec.dist P a b := by
  unfold Cert.Spec.dist
  congr 1
  exact Finset.sum_congr rfl fun d _ => by rw [hA d, hB d, add_zero]

end Cert.GatherLaw

end
-- ==== Proof.KI.Gathered.lean ====
import proofs.«425186_j76596446757483_2_alg».proof.Proof.KI.Chunk
import proofs.«425186_j76596446757483_2_alg».proof.Proof.GatherLaw

noncomputable section

open scoped BigOperators

namespace Cert.KernelIdeal.Hand

open Cert.KernelIdeal Idealize.ShloMosaic Idealize.ShloMosaic.ValueIdx Cert.LibOneHot

def colSum (T : FVec Ideal S65536x16 .bf16) (wa wb : BitVec 32) (col : Fin 16) : EReal :=
  ∑ j : Fin 65536, (hit (BitVec.ofNat 32 j.val) wa - hit (BitVec.ofNat 32 j.val) wb) * T (ix2 j col)

theorem gathered (P : FVec Ideal S65536x8 .f32) (hfin : ∀ j, IsReal (P j)) (T : FVec Ideal S65536x16 .bf16)
    (hT : ∀ (n : Fin 65536) (col : Fin 16), T (ix2 n col)
      = if h : col.val < 8 then P (ix2 n (⟨col.val, h⟩ : Fin 8))
        else P (ix2 n (⟨col.val - 8, by omega⟩ : Fin 8)) - P (ix2 n (⟨col.val - 8, by omega⟩ : Fin 8)))
    (wa wb : BitVec 32) (ha : wa.toNat < 65536) (hb : wb.toNat < 65536) :
    Ideal.sqrt (∑ d : Fin 8, (colSum T wa wb (⟨d.val, by omega⟩ : Fin 16) + colSum T wa wb (⟨d.val + 8, by omega⟩ : Fin 16))
        * (colSum T wa wb (⟨d.val, by omega⟩ : Fin 16) + colSum T wa wb (⟨d.val + 8, by omega⟩ : Fin 16)))
      = Cert.Spec.dist P (Cert.Spec.row wa) (Cert.Spec.row wb) := by
  refine Cert.GatherLaw.dist_of_columns P (Cert.Spec.row wa) (Cert.Spec.row wb)
    (fun d => colSum T wa wb (⟨d.val, by omega⟩ : Fin 16)) (fun d => colSum T wa wb (⟨d.val + 8, by omega⟩ : Fin 16)) ?_ ?_
  · intro d
    unfold colSum
    have hcol : ∀ j : Fin 65536, T (ix2 j (⟨d.val, by omega⟩ : Fin 16)) = P (ix2 j d) := by
      intro j
      rw [hT j ⟨d.val, by omega⟩, dif_pos (show (⟨d.val, by omega⟩ : Fin 16).val < 8 from d.isLt)]
    simp only [hcol]
    exact Cert.GatherLaw.sum_rows (fun j => P (ix2 j d)) (fun j => hfin _) wa wb ha hb
  · intro d
    unfold colSum
    refine Cert.GatherLaw.sum_rows_zero (fun j => T (ix2 j (⟨d.val + 8, by omega⟩ : Fin 16))) (fun j => ?_) wa wb
    show T (ix2 j (⟨d.val + 8, by omega⟩ : Fin 16)) = 0
    rw [hT j ⟨d.val + 8, by omega⟩, dif_neg (show ¬(⟨d.val + 8, by omega⟩ : Fin 16).val < 8 from by simp)]
    exact sub_self_of_isReal (hfin _)

end Cert.KernelIdeal.Hand

end
-- ==== Proof.SumsLaw.lean ====
import Mathlib.Data.EReal.Basic
import Mathlib.Algebra.BigOperators.Intervals
import Mathlib.Algebra.BigOperators.Fin

noncomputable section

open scoped BigOperators

namespace Cert.SumsLaw

/-- What restarts at every sixteenth point with the point's T terms and elsewhere adds them holds at point n the first (n % 16 + 1) * T terms. -/
theorem sweep_sums {N : ℕ} (T : ℕ) (s : (n : ℕ) → n < N → EReal) (g : (n : ℕ) → n < N → ℕ → EReal)
    (h0 : ∀ n hn, n % 16 = 0 → s n hn = ∑ j ∈ Finset.range T, g n hn (n % 16 * T + j))
    (h1 : ∀ n (hn : n + 1 < N), ¬(n + 1) % 16 = 0 →
      s (n + 1) hn = s n (Nat.lt_of_succ_lt hn) + ∑ j ∈ Finset.range T, g (n + 1) hn ((n + 1) % 16 * T + j))
    (hg : ∀ n (hn : n + 1 < N), ¬(n + 1) % 16 = 0 → g n (Nat.lt_of_succ_lt hn) = g (n + 1) hn) :
    ∀ n hn, s n hn = ∑ j ∈ Finset.range ((n % 16 + 1) * T), g n hn j := by
  have first : ∀ n hn, n % 16 = 0 → s n hn = ∑ j ∈ Finset.range ((n % 16 + 1) * T), g n hn j := fun n hn h => by
    rw [h0 n hn h, h]; simp only [Nat.zero_mul, Nat.zero_add, Nat.one_mul]
  intro n
  induction n with
  | zero => exact fun hn => first 0 hn rfl
  | succ n ih =>
    intro hn
    by_cases hz : (n + 1) % 16 = 0
    · exact first _ hn hz
    · rw [h1 n hn hz, ih, hg n hn hz, show (n + 1) % 16 = n % 16 + 1 from by omega, Nat.add_mul (n % 16 + 1) 1 T, Nat.one_mul,
        Finset.sum_range_add]

end Cert.SumsLaw

end
-- ==== Proof.KI.FoldLaw.lean ====
import proofs.«425186_j76596446757483_2_alg».proof.Proof.KI.Gathered
import proofs.«425186_j76596446757483_2_alg».proof.Proof.SumsLaw

noncomputable section

open scoped BigOperators

namespace Cert.KernelIdeal.Hand

open Cert.KernelIdeal Idealize.ShloMosaic Idealize.ShloMosaic.ValueIdx Cert.LibOneHot

/-- Table row n's term of a column sum for a pair of index words (zero past the table's end). -/
def term (T : FVec Ideal S65536x16 .bf16) (wa wb : BitVec 32) (col : Fin 16) (n : ℕ) : EReal :=
  if h : n < 65536 then (hit (BitVec.ofNat 32 n) wa - hit (BitVec.ofNat 32 n) wb) * T (ix2 (⟨n, h⟩ : Fin 65536) col) else 0

/-- The word the body forms for row j of table tile k is the row's number. -/
theorem word_of_tile (k j : ℕ) : Scalar.muli (BitVec.ofNat 32 k) 4096#32 + BitVec.ofNat 32 j = BitVec.ofNat 32 (k * 4096 + j) := by
  show BitVec.ofNat 32 k * BitVec.ofNat 32 4096 + BitVec.ofNat 32 j = _
  rw [← BitVec.ofNat_mul, ← BitVec.ofNat_add]

/-- The 4096 terms a point adds to the accumulator's entry, tb being the word of its tile's first row and x the tile. -/
def tileSum (tb wa wb : BitVec 32) (x : Vec Ideal S4096x16 .bf16) (col : Fin 16) : EReal :=
  ∑ i : Fin 4096, (hit (tb + BitVec.ofNat 32 i.val) wa - hit (tb + BitVec.ofNat 32 i.val) wb) * x (ix2 i col)

/-- With x tile k of the table they are the terms of table rows k * 4096 + j. -/
theorem tile_terms (T : FVec Ideal S65536x16 .bf16) (x : Vec Ideal S4096x16 .bf16) (k : ℕ) (hk : k < 16)
    (hx : ∀ (n : Fin 4096) (col : Fin 16), x (ix2 n col) = T (ix2 (⟨k * 4096 + n.val, by omega⟩ : Fin 65536) col))
    (wa wb : BitVec 32) (col : Fin 16) :
    tileSum (Scalar.muli (BitVec.ofNat 32 k) 4096#32) wa wb x col = ∑ j ∈ Finset.range 4096, term T wa wb col (k * 4096 + j) := by
  unfold tileSum
  rw [← Fin.sum_univ_eq_sum_range (fun j => term T wa wb col (k * 4096 + j)) 4096]
  refine Finset.sum_congr rfl fun n _ => ?_
  have hlt : k * 4096 + n.val < 65536 := by omega
  unfold term
  rw [dif_pos hlt, word_of_tile, hx n col]

/-- The terms of all sixteen tiles are the column sum over the whole table. -/
theorem full_terms (T : FVec Ideal S65536x16 .bf16) (wa wb : BitVec 32) (col : Fin 16) :
    ∑ j ∈ Finset.range ((15 + 1) * 4096), term T wa wb col j = colSum T wa wb col := by
  show ∑ j ∈ Finset.range 65536, term T wa wb col j = _
  rw [← Fin.sum_univ_eq_sum_range (term T wa wb col) 65536]
  refine Finset.sum_congr rfl fun j _ => ?_
  unfold term
  rw [dif_pos j.isLt]

/-- What restarts at every sixteenth point with the point's tile sum and elsewhere adds it is, at a run's last point, the whole table's column sum. -/
theorem sweep_cols {N : ℕ} (T : FVec Ideal S65536x16 .bf16) (s : (n : ℕ) → n < N → EReal) (wa wb tb : (n : ℕ) → n < N → BitVec 32)
    (x : (n : ℕ) → n < N → Vec Ideal S4096x16 .bf16) (col : Fin 16)
    (htb : ∀ n hn, tb n hn = Scalar.muli (BitVec.ofNat 32 (n % 16)) 4096#32)
    (hx : ∀ n hn (i : Fin 4096) (col : Fin 16), x n hn (ix2 i col) = T (ix2 (⟨n % 16 * 4096 + i.val, by omega⟩ : Fin 65536) col))
    (h0 : ∀ n hn, n % 16 = 0 → s n hn = tileSum (tb n hn) (wa n hn) (wb n hn) (x n hn) col)
    (h1 : ∀ n (hn : n + 1 < N), ¬(n + 1) % 16 = 0 →
      s (n + 1) hn = s n (Nat.lt_of_succ_lt hn) + tileSum (tb (n + 1) hn) (wa (n + 1) hn) (wb (n + 1) hn) (x (n + 1) hn) col)
    (hw : ∀ n (hn : n + 1 < N), ¬(n + 1) % 16 = 0 →
      wa n (Nat.lt_of_succ_lt hn) = wa (n + 1) hn ∧ wb n (Nat.lt_of_succ_lt hn) = wb (n + 1) hn)
    (n : ℕ) (hn : n < N) (h15 : n % 16 = 15) : s n hn = colSum T (wa n hn) (wb n hn) col := by
  have tt : ∀ n hn, tileSum (tb n hn) (wa n hn) (wb n hn) (x n hn) col
      = ∑ j ∈ Finset.range 4096, term T (wa n hn) (wb n hn) col (n % 16 * 4096 + j) := fun n hn => by
    rw [htb]
    exact tile_terms T (x n hn) (n % 16) (Nat.mod_lt _ (by norm_num)) (hx n hn) _ _ col
  rw [Cert.SumsLaw.sweep_sums 4096 s (fun n hn => term T (wa n hn) (wb n hn) col) (fun n hn h => (h0 n hn h).trans (tt n hn))
    (fun n hn h => (h1 n hn h).trans (congrArg _ (tt (n + 1) hn))) (fun n hn h => by rw [(hw n hn h).1, (hw n hn h).2]) n hn, h15]
  exact full_terms T _ _ col

/-- A point-indexed family of 4096 × 1 blocks read at an equal point and an equal row. -/
theorem block_at {α : Type} {N : ℕ} (f : (n : ℕ) → n < N → S4096x1.Idx → α) (n : ℕ) (hn : n < N) (t : ℕ) (ht : t < N)
    (k : Fin 4096) (y : S4096x1.Idx) (e1 : n = t) (e2 : k.val = (y 0).val) : f n hn (ix2 k (0 : Fin 1)) = f t ht y := by
  subst e1
  refine congrArg (f n hn) (funext fun a => ?_)
  match a with
  | ⟨0, _⟩ => exact Fin.ext e2
  | ⟨1, h1⟩ =>
    refine Fin.ext ?_
    have hy1 : (y ⟨1, h1⟩).val < 1 := (y ⟨1, h1⟩).isLt
    show (0 : ℕ) = (y ⟨1, h1⟩).val
    omega

/-- The root of the sum of squares of (first half + second half) of the column sums. -/
def rootSq (T : FVec Ideal S65536x16 .bf16) (wa wb : BitVec 32) : EReal :=
  Ideal.sqrt (∑ d : Fin 8, (colSum T wa wb (⟨d.val, by omega⟩ : Fin 16) + colSum T wa wb (⟨d.val + 8, by omega⟩ : Fin 16))
    * (colSum T wa wb (⟨d.val, by omega⟩ : Fin 16) + colSum T wa wb (⟨d.val + 8, by omega⟩ : Fin 16)))

end Cert.KernelIdeal.Hand

end
-- ==== Proof.KI.R0Final.lean ====
import proofs.«425186_j76596446757483_2_alg».proof.Proof.KI.R0Dat
import proofs.«425186_j76596446757483_2_alg».proof.Proof.KI.FoldLaw

noncomputable section

namespace Cert.KernelIdeal.Hand

open Idealize.ShloMosaic Idealize.ShloMosaic.TcCoe Idealize.ShloMosaic.ValueIdx Cert.KernelIdeal Cert.KernelIdeal.Gen

variable {F : FTy → Type} [FloatOps F]

variable (V : (c : Dev nD) → (b : Ref sig .tc) → Buf (Elt F) ((c : Thread nD τ).loc b)) (c : Dev nD)

/-- Point t is (row tile t / 16, table tile t % 16): the index rows' and the output's windows follow the row tile, the table's the table tile. -/
theorem tile_of_point0 : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

theorem iblk0_0_apply (t : Fin cfg0.N) (q : ℕ) (hq : t.val / 16 = q) (r : Fin 4096) (j : Fin 2) :
    iblk0 V c 0 t (ix2 r j)
      = (V c main_v5 : S65536x2.Idx → Elt F .i32)
          (ix2 (⟨q * 4096 + r.val, by have h : t.val < 256 := lt_of_lt_of_eq t.isLt N0; omega⟩ : Fin 65536) j) := by
  obtain ⟨e0, e1, -⟩ := tile_of_point0 t
  unfold iblk0
  show V c main_v5 (((cfg0.win 0).blk t).view.emb (ix2 r j)) = _
  refine congrArg (V c main_v5) (funext fun a => Fin.ext ?_)
  match a with
  | ⟨0, _⟩ =>
    show win0_0.index t (0 : Fin 2) * 4096 + 1 * r.val = q * 4096 + r.val
    omega
  | ⟨1, _⟩ =>
    show win0_0.index t (1 : Fin 2) * 2 + 1 * j.val = j.val
    omega

/-- Points of one row tile read one index block. -/
theorem iblk0_0_sweep (t t' : Fin cfg0.N) (h : t.val / 16 = t'.val / 16) (r : Fin 4096) (j : Fin 2) :
    iblk0 V c 0 t (ix2 r j) = iblk0 V c 0 t' (ix2 r j) := by
  rw [iblk0_0_apply V c t _ h, iblk0_0_apply V c t' _ rfl]

theorem iblk0_1_apply (t : Fin cfg0.N) (n : Fin 4096) (col : Fin 16) :
    iblk0 V c 1 t (ix2 n col)
      = (V c main_v4 : S65536x16.Idx → Elt F .bf16) (ix2 (⟨(t.val % 16) * 4096 + n.val, by omega⟩ : Fin 65536) col) := by
  obtain ⟨-, -, e2, e3, -⟩ := tile_of_point0 t
  unfold iblk0
  show V c main_v4 (((cfg0.win 1).blk t).view.emb (ix2 n col)) = _
  refine congrArg (V c main_v4) (funext fun a => Fin.ext ?_)
  match a with
  | ⟨0, _⟩ =>
    show win0_1.index t (0 : Fin 2) * 4096 + 1 * n.val = (t.val % 16) * 4096 + n.val
    omega
  | ⟨1, _⟩ =>
    show win0_1.index t (1 : Fin 2) * 16 + 1 * col.val = col.val
    omega

/-- The output as one function of the rows: row i holds entry i % 4096 of what the last point of row tile i / 4096 stored. -/
def rowsOut0 : S65536x1.Idx → Elt F .f32 := fun i =>
  (outsAt0 V c (((i 0).val / 4096) * 16 + 15) (by have h : (i 0).val < 65536 := (i 0).isLt; rw [N0]; omega)).1
    (ix2 (⟨(i 0).val % 4096, Nat.mod_lt _ (by norm_num)⟩ : Fin 4096) (0 : Fin 1))

/-- The block a sweep's last point gives to the output is its block of that function. -/
theorem flushed0_eq (t : Fin cfg0.N) (hf : (cfg0.win 2).flush t = true) :
    (dat0 V c).flushed 2 t = ((cfg0.win 2).blk t).view.read (Elt F) (rowsOut0 V c) := by
  have h15 : t.val % 16 = 15 := (flush0_2 t).mp hf
  obtain ⟨-, -, -, -, e4, -⟩ := tile_of_point0 t
  show (cfg0.win 2).cut (grid0.coords t) ((dat0 V c).after 2 t) = _
  rw [after0_2]
  funext y
  have hy : (y 0).val < 4096 := (y 0).isLt
  have e : (((cfg0.win 2).blk t).view.emb y 0).val = t.val / 16 * 4096 + (y 0).val := by
    show win0_2.index t (0 : Fin 2) * 4096 + 1 * (y 0).val = _
    omega
  exact (block_at (fun n hn => (outsAt0 V c n hn).1) _ _ t.val t.isLt _ y (by omega)
    (show (((cfg0.win 2).blk t).view.emb y 0).val % 4096 = (y 0).val by omega)).symm

/-- After the region, row `row` of the output holds what the last point of its row tile's sweep stored: that point's block holds the row. -/
theorem final0_apply (row : Fin 65536) :
    ((dat0 V c).arrAt 2 cfg0.N : S65536x1.Idx → Elt F .f32) (ix2 row (0 : Fin 1))
      = (outsAt0 V c ((row.val / 4096) * 16 + 15) (by rw [N0]; omega)).1
          (ix2 (⟨row.val % 4096, Nat.mod_lt _ (by norm_num)⟩ : Fin 4096) (0 : Fin 1)) := by
  obtain ⟨t, ht⟩ : ∃ t : Fin cfg0.N, t.val = row.val / 4096 * 16 + 15 := ⟨⟨_, by rw [N0]; omega⟩, rfl⟩
  refine (dat0 V c).arrAt_apply_of_mem 2 (rowsOut0 V c) (flushed0_eq V c) cfg0.N t _ t.isLt ((flush0_2 t).mpr (by omega)) ?_
  obtain ⟨-, -, -, -, e4, e5⟩ := tile_of_point0 t
  show _ ∈ ((View.whole main_v7).slice (win0_2.rect t)).set
  rw [View.set_slice_whole, Rect.mem_set_unit]
  intro (a : Fin 2)
  match a with
  | ⟨0, _⟩ =>
    show win0_2.index t (0 : Fin 2) * 4096 ≤ row.val ∧ row.val < win0_2.index t (0 : Fin 2) * 4096 + 4096
    omega
  | ⟨1, _⟩ =>
    show win0_2.index t (1 : Fin 2) * 1 ≤ 0 ∧ 0 < win0_2.index t (1 : Fin 2) * 1 + 1
    omega

end Cert.KernelIdeal.Hand

end
-- ==== Proof.KI.R0Fold.lean ====
import proofs.«425186_j76596446757483_2_alg».proof.Proof.KI.R0Acc
import proofs.«425186_j76596446757483_2_alg».proof.Proof.KI.R0Final

noncomputable section

namespace Cert.KernelIdeal.Hand

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b)) (c : Dev nD)

theorem coords0_1 : ∀ t : Fin cfg0.N, ((grid0.coords t) 1).val = t.val % 16 :=
  (by decide +kernel : ∀ t : Fin grid0.N, ((grid0.coords t) 1).val = t.val % 16)

/-- At a sweep's last point the accumulator's entry (r, col) is the column sum over the whole table for row r's two index words. -/
theorem acc0_full (n : ℕ) (hn : n < cfg0.N) (h15 : n % 16 = 15) (r : Fin 4096) (col : Fin 16) :
    (outsAt0 (F := Ideal) V c n hn).2 (ix2 r col)
      = colSum (V c main_v4) (iblk0 V c 0 ⟨n, hn⟩ (ix2 r (0 : Fin 2))) (iblk0 V c 0 ⟨n, hn⟩ (ix2 r (1 : Fin 2))) col := by
  refine sweep_cols (V c main_v4) (fun n hn => (outsAt0 (F := Ideal) V c n hn).2 (ix2 r col))
    (fun n hn => iblk0 V c 0 ⟨n, hn⟩ (ix2 r (0 : Fin 2))) (fun n hn => iblk0 V c 0 ⟨n, hn⟩ (ix2 r (1 : Fin 2)))
    (fun n hn => tileBase0 (grid0.coords ⟨n, hn⟩)) (fun n hn => iblk0 V c 1 ⟨n, hn⟩) col
    (fun n hn => congrArg (fun k => Scalar.muli (BitVec.ofNat 32 k) 4096#32) (coords0_1 ⟨n, hn⟩))
    (fun n hn => iblk0_1_apply V c ⟨n, hn⟩) (fun n hn h => ?_) (fun n hn h => ?_) (fun n hn h => ?_) n hn h15
  · rw [show outsAt0 (F := Ideal) V c n hn = _ from outsAt0_first V c ⟨n, hn⟩ h]
    dsimp only
    exact accFirst0_apply _ _ _ _ _ _ _ _ _ _ _ _ _ _ r col
  · by_cases h1 : (n + 1) % 16 = 15
    · rw [show outsAt0 (F := Ideal) V c (n + 1) hn = _ from outsAt0_last V c ⟨n + 1, hn⟩ h h1]
      dsimp only
      exact accLast0_apply _ _ _ _ _ _ _ _ _ _ _ _ _ _ _ r col
    · rw [show outsAt0 (F := Ideal) V c (n + 1) hn = _ from outsAt0_mid V c ⟨n + 1, hn⟩ h h1]
      dsimp only
      exact accMid0_apply _ _ _ _ _ _ _ _ _ _ _ _ _ _ _ r col
  · have e := iblk0_0_sweep V c ⟨n, Nat.lt_of_succ_lt hn⟩ ⟨n + 1, hn⟩ (by show n / 16 = (n + 1) / 16; omega) r
    exact ⟨e 0, e 1⟩

/-- What the point writes out for row r, wa and wb being the row's two index words. -/
theorem out0_at (n : ℕ) (hn : n < cfg0.N) (h0 : ¬n % 16 = 0) (h1 : n % 16 = 15) (r : Fin 4096) (wa wb : BitVec 32)
    (ha : iblk0 V c 0 ⟨n, hn⟩ (ix2 r (0 : Fin 2)) = wa) (hb : iblk0 V c 0 ⟨n, hn⟩ (ix2 r (1 : Fin 2)) = wb) :
    (outsAt0 (F := Ideal) V c n hn).1 (ix2 r (0 : Fin 1)) = rootSq (V c main_v4) wa wb := by
  unfold rootSq
  subst ha hb
  simp only [← acc0_full V c n hn h1 r]
  rw [show outsAt0 (F := Ideal) V c n hn = _ from outsAt0_last V c ⟨n, hn⟩ h0 h1]
  dsimp only
  exact outLast0_apply _ _ _ _ _ _ _ _ _ _ _ _ _ _ _ r

end Cert.KernelIdeal.Hand

end
-- ==== Proof.KI.HostIn.lean ====
import proofs.«425186_j76596446757483_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal

noncomputable section

namespace Cert.KernelIdeal.Hand

open Cert.KernelIdeal Cert.KernelIdeal.Gen Idealize.ShloMosaic Idealize.ShloMosaic.ValueIdx Idealize.ShloMosaic.TcCoe
open Idealize.ShloMosaic.StableHlo (after_cons after_nil)

variable (m : (ℓ : Loc nD τ sig) → Buf (Elt Ideal) ℓ)

abbrev pts (c : Dev nD) : FVec Ideal S65536x8 .f32 := m ((c : Thread nD τ).loc main_arg0)
abbrev idx0 (c : Dev nD) : IVec S65535x2 32 := m ((c : Thread nD τ).loc main_arg1)
abbrev idx1 (c : Dev nD) : IVec S2000000x4 32 := m ((c : Thread nD τ).loc main_arg2)

theorem v4_eq (c : Dev nD) :
    (V4 m c main_v4 : S65536x16.Idx → EReal)
      = (concatenate S65536x16 1
          [⟨S65536x8, truncf FTy.bf16 (pts m c) bitsLt_bf16_f32⟩,
            ⟨S65536x8, truncf FTy.bf16
              (subf (pts m c) (extf FTy.f32 (truncf FTy.bf16 (pts m c) bitsLt_bf16_f32) bitsLt_bf16_f32))
              bitsLt_bf16_f32⟩]
          concatenates_S65536x8_S65536x8_S65536x16_d1 : FVec Ideal S65536x16 .bf16) := by
  rw [V4_of m c main_v4 (by decide), V3_of m c main_v4 (by decide), V2_of m c main_v4 (by decide)]
  dsimp only [V1, V0]
  simp only [hostOps0]
  after_results

theorem v5_eq (c : Dev nD) :
    (V4 m c main_v5 : S65536x2.Idx → BitVec 32)
      = pad S65536x2 ![0, 0] ![1, 0] ![0, 0] (idx0 m c) (constantI S_ 32 0#32) pads_S65535x2_S65536x2_010_000 h_S_ := by
  rw [V4_of m c main_v5 (by decide), V3_of m c main_v5 (by decide)]
  dsimp only [V2]
  simp only [hostOps0_1]
  after_results
  rfl

theorem v6_eq (c : Dev nD) :
    (V4 m c main_v6 : S2002944x4.Idx → BitVec 32)
      = pad S2002944x4 ![0, 0] ![2944, 0] ![0, 0] (idx1 m c) (constantI S_ 32 0#32)
          pads_S2000000x4_S2002944x4_029440_000 h_S_ := by
  dsimp only [V4]
  simp only [hostOps0_3]
  after_results
  rfl

theorem table_apply (c : Dev nD) (n : Fin 65536) (col : Fin 16) :
    (V4 m c main_v4 : S65536x16.Idx → EReal) (ix2 n col)
      = if h : col.val < 8 then pts m c (ix2 n ⟨col.val, h⟩)
        else pts m c (ix2 n ⟨col.val - 8, by omega⟩) - pts m c (ix2 n ⟨col.val - 8, by omega⟩) := by
  rw [v4_eq]
  by_cases h : col.val < 8
  · rw [dif_pos h]
    refine (concatenate_pair_apply_left (t := S65536x16) (s₁ := S65536x8) (s₂ := S65536x8) (1 : Fin 2) _ _
      concatenates_S65536x8_S65536x8_S65536x16_d1 (ix2 n col : S65536x16.Idx) rfl
      (ix2 n (⟨col.val, h⟩ : Fin 8) : S65536x8.Idx) fun b => ?_).trans rfl
    match b with
    | ⟨0, _⟩ => rfl
    | ⟨1, _⟩ => rfl
  · rw [dif_neg h]
    refine (concatenate_pair_apply_right (t := S65536x16) (s₁ := S65536x8) (s₂ := S65536x8) (1 : Fin 2) _ _
      concatenates_S65536x8_S65536x8_S65536x16_d1 (ix2 n col : S65536x16.Idx) rfl rfl
      (ix2 n (⟨col.val - 8, by omega⟩ : Fin 8) : S65536x8.Idx) (fun b hb => ?_) ?_).trans rfl
    · match b with
      | ⟨0, _⟩ => rfl
      | ⟨1, _⟩ => exact absurd rfl hb
    · show col.val - 8 + 8 = col.val
      omega

/-- Rows appended below a rank-2 array of words: at the old rows the array, below them the pad word. -/
theorem padRows_apply {N M C k : ℕ} {u : Shape} (x : IVec ⟨2, ![N, C]⟩ 32) (z : IVec u 32)
    (h : (⟨2, ![N, C]⟩ : Shape).Pads ![0, 0] ![k, 0] ![0, 0] ⟨2, ![M, C]⟩) (hu : 0 < u.numel) (r : Fin M) (j : Fin C) :
    pad ⟨2, ![M, C]⟩ ![0, 0] ![k, 0] ![0, 0] x z h hu (ix2 r j)
      = if hr : r.val < N then x (ix2 ⟨r.val, hr⟩ j) else z (Shape.Idx.first hu) := by
  by_cases hr : r.val < N
  · rw [dif_pos hr]
    refine pad_apply_of_inside _ _ _ _ _ h hu (ix2 r j) (ix2 ⟨r.val, hr⟩ j) fun a => ?_
    match a with
    | ⟨0, _⟩ => show r.val = 0 + r.val * (0 + 1); omega
    | ⟨1, _⟩ => show j.val = 0 + j.val * (0 + 1); omega
  · rw [dif_neg hr]
    refine pad_apply_of_not_inside _ _ _ _ _ h hu (ix2 r j) (0 : Fin 2) ?_
    rintro ⟨-, -, h3⟩
    have h3' : (r.val - 0) / (0 + 1) < N := h3
    omega

theorem pad0_apply (c : Dev nD) (r : Fin 65536) (j : Fin 2) :
    (V4 m c main_v5 : S65536x2.Idx → BitVec 32) (ix2 r j)
      = if h : r.val < 65535 then idx0 m c (ix2 ⟨r.val, h⟩ j) else 0#32 := by
  rw [v5_eq]
  exact padRows_apply (idx0 m c) _ pads_S65535x2_S65536x2_010_000 h_S_ r j

theorem pad1_apply (c : Dev nD) (r : Fin 2002944) (j : Fin 4) :
    (V4 m c main_v6 : S2002944x4.Idx → BitVec 32) (ix2 r j)
      = if h : r.val < 2000000 then idx1 m c (ix2 ⟨r.val, h⟩ j) else 0#32 := by
  rw [v6_eq]
  exact padRows_apply (idx1 m c) _ pads_S2000000x4_S2002944x4_029440_000 h_S_ r j

end Cert.KernelIdeal.Hand

end
-- ==== Proof.KI.Carry.lean ====
import proofs.«425186_j76596446757483_2_alg».proof.Proof.KI.Launch

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem X6_main_v4 (c : Dev nD) : X6 m c main_v4 = V4 m c main_v4 := by
  rw [← V6_eq m c]
  exact (V6_of m (outs m) c main_v4 (by decide)).trans (V5_of m (outs m) c main_v4 (by decide))

theorem X6_main_v6 (c : Dev nD) : X6 m c main_v6 = V4 m c main_v6 := by
  rw [← V6_eq m c]
  exact (V6_of m (outs m) c main_v6 (by decide)).trans (V5_of m (outs m) c main_v6 (by decide))

theorem X8_main_v4 (c : Dev nD) : X8 m c main_v4 = V4 m c main_v4 := by
  rw [← V8_eq m c]
  exact (V8_of m (outs m) c main_v4 (by decide)).trans <| (V7_of m (outs m) c main_v4 (by decide)).trans <|
    (V6_of m (outs m) c main_v4 (by decide)).trans (V5_of m (outs m) c main_v4 (by decide))

theorem X8_main_v6 (c : Dev nD) : X8 m c main_v6 = V4 m c main_v6 := by
  rw [← V8_eq m c]
  exact (V8_of m (outs m) c main_v6 (by decide)).trans <| (V7_of m (outs m) c main_v6 (by decide)).trans <|
    (V6_of m (outs m) c main_v6 (by decide)).trans (V5_of m (outs m) c main_v6 (by decide))

end Cert.KernelIdeal.Hand

end
-- ==== Proof.KI.Entry.lean ====
import proofs.«425186_j76596446757483_2_alg».proof.Proof.KI.Carry

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ) (c : Dev nD)

/-! Every region finds the table and its padded index array as region 0's entry has them. -/

theorem entry0_tab : vr (V4 m) c main_v4 = V4 m c main_v4 := rfl
theorem entry0_idx : vr (V4 m) c main_v5 = V4 m c main_v5 := rfl
theorem entry1_tab : vr (X6 m) c main_v4 = V4 m c main_v4 := X6_main_v4 m c
theorem entry1_idx : vr (X6 m) c main_v6 = V4 m c main_v6 := X6_main_v6 m c
theorem entry2_tab : vr (X8 m) c main_v4 = V4 m c main_v4 := X8_main_v4 m c
theorem entry2_idx : vr (X8 m) c main_v6 = V4 m c main_v6 := X8_main_v6 m c

end Cert.KernelIdeal.Hand

end
-- ==== Proof.KI.Close0.lean ====
import proofs.«425186_j76596446757483_2_alg».proof.Proof.KI.R0Fold
import proofs.«425186_j76596446757483_2_alg».proof.Proof.KI.HostIn
import proofs.«425186_j76596446757483_2_alg».proof.Proof.KI.Entry

noncomputable section

namespace Cert.KernelIdeal.Hand

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-- Below row 65535 the padded index array is the index table, so point n's index block has at row r the words of table row `row`. -/
theorem pair_word0 (n : ℕ) (hn : n < cfg0.N) (r : Fin 4096) (j : Fin 2) (row : Fin 65535)
    (hrow : (n / 16) * 4096 + r.val = row.val) :
    iblk0 (vr (V4 m)) c 0 ⟨n, hn⟩ (ix2 r j) = idx0 m c (ix2 row j) := by
  have hlt : (n / 16) * 4096 + r.val < 65535 := by rw [hrow]; exact row.isLt
  refine (iblk0_0_apply (vr (V4 m)) c ⟨n, hn⟩ _ rfl r j).trans ?_
  rw [entry0_idx m c]
  refine (pad0_apply m c ⟨(n / 16) * 4096 + r.val, by omega⟩ j).trans ?_
  rw [dif_pos hlt]
  exact congrArg (fun k : Fin 65535 => idx0 m c (ix2 k j)) (Fin.ext hrow)

/-- Row i of the output is the distance of the two rows of P that row i of the index table names, the table reading (P | P - P). -/
theorem o5_apply (hfin : ∀ j, Cert.LibOneHot.IsReal (pts m c j)) (h1 : ∀ j, (idx0 m c j).toNat < 65536)
    (i : Fin 65535) :
    (o5 m c : S65536x1.Idx → EReal) (ix2 (⟨i.val, by omega⟩ : Fin 65536) (0 : Fin 1))
      = Cert.Spec.dist (pts m c) (Cert.Spec.row (idx0 m c (ix2 i (0 : Fin 2))))
          (Cert.Spec.row (idx0 m c (ix2 i (1 : Fin 2)))) := by
  have hi : i.val < 65535 := i.isLt
  have hrow : (i.val / 4096 * 16 + 15) / 16 * 4096 + i.val % 4096 = i.val := by omega
  unfold o5
  refine (final0_apply (vr (V4 m)) c (⟨i.val, by omega⟩ : Fin 65536)).trans ?_
  refine (out0_at (vr (V4 m)) c (i.val / 4096 * 16 + 15) _ (by omega) (by omega) ⟨i.val % 4096, Nat.mod_lt _ (by norm_num)⟩ _ _
    (pair_word0 m c _ _ _ 0 i hrow) (pair_word0 m c _ _ _ 1 i hrow)).trans ?_
  rw [entry0_tab m c]
  exact gathered (pts m c) hfin _ (table_apply m c) _ _ (h1 _) (h1 _)

end Cert.KernelIdeal.Hand

end
-- ==== Proof.KI.R1Acc.lean ====
import proofs.«425186_j76596446757483_2_alg».proof.Proof.KI.R1Dat
import proofs.«425186_j76596446757483_2_alg».proof.Proof.KI.Sweep

noncomputable section

open scoped BigOperators

namespace Cert.KernelIdeal.Hand

open Cert.KernelIdeal Idealize.ShloMosaic Idealize.ShloMosaic.ValueIdx
open Idealize.ShloMosaic.TcCoe Idealize.ShloMosaic.Tactic
open Cert.KernelIdeal.Gen

/-- the table tile's first row number at a grid point: 4096 times the point's second coordinate, as a word -/
def tileBase1 (i : grid1.Coords) : BitVec 32 := Scalar.muli (BitVec.ofNat 32 (i 1).val) 4096#32

section
variable (c : Dev nD) (i : grid1.Coords)
  (arg2 : Memref sig .tc .vmem S4096x4 .i32) (harg2 : arg2.IsWhole) (arg3 : Memref sig .tc .vmem S4096x16 .bf16) (harg3 : arg3.IsWhole)
  (arg4 : Memref sig .tc .vmem S4096x1 .f32) (harg4 : arg4.IsWhole) (arg5 : Memref sig .tc .vmem S4096x16 .f32) (harg5 : arg5.IsWhole)

section
variable {F : FTy → Type} [FloatOps F] (x0 : Vec F S4096x4 .i32) (x1 : Vec F S4096x16 .bf16) (xs : Vec F S4096x16 .f32)

theorem k1_pay5_apply (r : Fin 4096) : k1_pay5 x0 (ix2 r (0 : Fin 1)) = x0 (ix2 r (0 : Fin 4)) := by
  unfold k1_pay5 k1_pay4
  rw [shapeCast_self]
  exact slice2_axis1_apply _ x0 _ r (0 : Fin 1) (0 : Fin 4) rfl

theorem k1_pay6_apply (r : Fin 4096) : k1_pay6 x0 (ix2 r (0 : Fin 1)) = x0 (ix2 r (1 : Fin 4)) := by
  unfold k1_pay6 k1_pay4
  rw [shapeCast_self]
  exact slice2_axis1_apply _ x0 _ r (0 : Fin 1) (1 : Fin 4) rfl

/-- Each load of the accumulator reads the payload stored before it; the sixteen payloads are the sixteen updates. -/
theorem accMid1_eq (hc0 : ¬first1 i) (hc1 : ¬last1 i) :
    accMid1 c i arg2 harg2 arg3 harg3 arg4 harg4 arg5 harg5 hc0 hc1 x0 x1 xs = sweep (tileBase1 i) (k1_pay5 x0) (k1_pay6 x0) x1 xs := by
  refine (View.read_writes_eq_canon _ _ _ (coverMid1 c i arg2 harg2 arg3 harg3 arg4 harg4 arg5 harg5 hc0 hc1 x0 x1 xs)).trans ?_
  unfold run1_mid
  sl_unfold_words
  simp only [↓ View.canon_cons_unit_zero (S := S4096x16) hz, ↓ View.readCov_cons_toLoadRect,
    View.readAt_eq_ld, harg2.read_unread, harg3.read_unread, harg5.read_unread,
    View.ld_unit_zero (S := S4096x4) hz, View.ld_unit_zero (S := S4096x16) hz]
  rfl

theorem accLast1_eq (hc0 : ¬first1 i) (hc1 : last1 i) :
    accLast1 c i arg2 harg2 arg3 harg3 arg4 harg4 arg5 harg5 hc0 hc1 x0 x1 xs = sweep (tileBase1 i) (k1_pay5 x0) (k1_pay6 x0) x1 xs := by
  refine (View.read_writes_eq_canon _ _ _ (coverAccLast1 c i arg2 harg2 arg3 harg3 arg4 harg4 arg5 harg5 hc0 hc1 x0 x1 xs)).trans ?_
  unfold run1_last
  sl_unfold_words
  simp only [↓ View.canon_cons_unit_zero (S := S4096x16) hz, ↓ View.readCov_cons_toLoadRect,
    View.readAt_eq_ld, harg2.read_unread, harg3.read_unread, harg5.read_unread,
    View.ld_unit_zero (S := S4096x4) hz, View.ld_unit_zero (S := S4096x16) hz]
  rfl

theorem accFirst1_eq (hc0 : first1 i) (hc1 : ¬last1 i) :
    accFirst1 c i arg2 harg2 arg3 harg3 arg4 harg4 arg5 harg5 hc0 hc1 x0 x1 = sweep (tileBase1 i) (k1_pay5 x0) (k1_pay6 x0) x1 k1_pay3 := by
  refine (View.read_writes_eq_canon _ _ _ (coverFirst1 c i arg2 harg2 arg3 harg3 arg4 harg4 arg5 harg5 hc0 hc1 x0 x1)).trans ?_
  unfold run1_first
  sl_unfold_words
  simp only [↓ View.canon_cons_unit_zero (S := S4096x16) hz, ↓ View.readCov_cons_toLoadRect,
    View.readAt_eq_ld, harg2.read_unread, harg3.read_unread,
    View.ld_unit_zero (S := S4096x4) hz]
  rfl

theorem outLast1_eq (hc0 : ¬first1 i) (hc1 : last1 i) :
    outLast1 c i arg2 harg2 arg3 harg3 arg4 harg4 arg5 harg5 hc0 hc1 x0 x1 xs = k1_pay2 (sweep (tileBase1 i) (k1_pay5 x0) (k1_pay6 x0) x1 xs) := by
  refine (View.read_writes_eq_canon _ _ _ (coverOutLast1 c i arg2 harg2 arg3 harg3 arg4 harg4 arg5 harg5 hc0 hc1 x0 x1 xs)).trans ?_
  unfold run1_last
  sl_unfold_words
  simp only [↓ View.canon_unit_zero (S := S4096x1) hz, ↓ View.readCov_cons_toLoadRect,
    View.readAt_eq_ld, harg2.read_unread, harg3.read_unread, harg5.read_unread,
    View.ld_unit_zero (S := S4096x4) hz, View.ld_unit_zero (S := S4096x16) hz]
  rfl

end

theorem accMid1_apply (hc0 : ¬first1 i) (hc1 : ¬last1 i) (x0 : Vec Ideal S4096x4 .i32) (x1 : Vec Ideal S4096x16 .bf16) (xs : Vec Ideal S4096x16 .f32)
    (r : Fin 4096) (col : Fin 16) :
    accMid1 (F := Ideal) c i arg2 harg2 arg3 harg3 arg4 harg4 arg5 harg5 hc0 hc1 x0 x1 xs (ix2 r col)
      = xs (ix2 r col) + ∑ n : Fin 4096, (hit (tileBase1 i + BitVec.ofNat 32 n.val) (x0 (ix2 r (0 : Fin 4)))
          - hit (tileBase1 i + BitVec.ofNat 32 n.val) (x0 (ix2 r (1 : Fin 4)))) * x1 (ix2 n col) := by
  rw [accMid1_eq]
  exact sweep_apply _ x1 xs r col (k1_pay5_apply x0 r) (k1_pay6_apply x0 r)

theorem accLast1_apply (hc0 : ¬first1 i) (hc1 : last1 i) (x0 : Vec Ideal S4096x4 .i32) (x1 : Vec Ideal S4096x16 .bf16) (xs : Vec Ideal S4096x16 .f32)
    (r : Fin 4096) (col : Fin 16) :
    accLast1 (F := Ideal) c i arg2 harg2 arg3 harg3 arg4 harg4 arg5 harg5 hc0 hc1 x0 x1 xs (ix2 r col)
      = xs (ix2 r col) + ∑ n : Fin 4096, (hit (tileBase1 i + BitVec.ofNat 32 n.val) (x0 (ix2 r (0 : Fin 4)))
          - hit (tileBase1 i + BitVec.ofNat 32 n.val) (x0 (ix2 r (1 : Fin 4)))) * x1 (ix2 n col) := by
  rw [accLast1_eq]
  exact sweep_apply _ x1 xs r col (k1_pay5_apply x0 r) (k1_pay6_apply x0 r)

theorem accFirst1_apply (hc0 : first1 i) (hc1 : ¬last1 i) (x0 : Vec Ideal S4096x4 .i32) (x1 : Vec Ideal S4096x16 .bf16) (r : Fin 4096) (col : Fin 16) :
    accFirst1 (F := Ideal) c i arg2 harg2 arg3 harg3 arg4 harg4 arg5 harg5 hc0 hc1 x0 x1 (ix2 r col)
      = ∑ n : Fin 4096, (hit (tileBase1 i + BitVec.ofNat 32 n.val) (x0 (ix2 r (0 : Fin 4)))
          - hit (tileBase1 i + BitVec.ofNat 32 n.val) (x0 (ix2 r (1 : Fin 4)))) * x1 (ix2 n col) := by
  rw [accFirst1_eq]
  exact sweep_zero_apply _ x1 r col (k1_pay5_apply x0 r) (k1_pay6_apply x0 r)

theorem outLast1_apply (hc0 : ¬first1 i) (hc1 : last1 i) (x0 : Vec Ideal S4096x4 .i32) (x1 : Vec Ideal S4096x16 .bf16) (xs : Vec Ideal S4096x16 .f32) (r : Fin 4096) :
    outLast1 (F := Ideal) c i arg2 harg2 arg3 harg3 arg4 harg4 arg5 harg5 hc0 hc1 x0 x1 xs (ix2 r (0 : Fin 1))
      = Ideal.sqrt (∑ d : Fin 8,
          (accLast1 (F := Ideal) c i arg2 harg2 arg3 harg3 arg4 harg4 arg5 harg5 hc0 hc1 x0 x1 xs (ix2 r (⟨d.val, by omega⟩ : Fin 16))
            + accLast1 (F := Ideal) c i arg2 harg2 arg3 harg3 arg4 harg4 arg5 harg5 hc0 hc1 x0 x1 xs (ix2 r (⟨d.val + 8, by omega⟩ : Fin 16)))
          * (accLast1 (F := Ideal) c i arg2 harg2 arg3 harg3 arg4 harg4 arg5 harg5 hc0 hc1 x0 x1 xs (ix2 r (⟨d.val, by omega⟩ : Fin 16))
            + accLast1 (F := Ideal) c i arg2 harg2 arg3 harg3 arg4 harg4 arg5 harg5 hc0 hc1 x0 x1 xs (ix2 r (⟨d.val + 8, by omega⟩ : Fin 16)))) := by
  rw [outLast1_eq, accLast1_eq]
  exact norm_apply _ r

end

end Cert.KernelIdeal.Hand
-- ==== Proof.KI.R1Final.lean ====
import proofs.«425186_j76596446757483_2_alg».proof.Proof.KI.R1Dat
import proofs.«425186_j76596446757483_2_alg».proof.Proof.KI.FoldLaw

noncomputable section

namespace Cert.KernelIdeal.Hand

open Idealize.ShloMosaic Idealize.ShloMosaic.TcCoe Idealize.ShloMosaic.ValueIdx Cert.KernelIdeal Cert.KernelIdeal.Gen

variable {F : FTy → Type} [FloatOps F]

variable (V : (c : Dev nD) → (b : Ref sig .tc) → Buf (Elt F) ((c : Thread nD τ).loc b)) (c : Dev nD)

/-- Point t is (row tile t / 16, table tile t % 16): the index rows' and the output's windows follow the row tile, the table's the table tile. -/
theorem tile_of_point1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N, _)

theorem iblk1_0_apply (t : Fin cfg1.N) (q : ℕ) (hq : t.val / 16 = q) (r : Fin 4096) (j : Fin 4) :
    iblk1 V c 0 t (ix2 r j)
      = (V c main_v6 : S2002944x4.Idx → Elt F .i32)
          (ix2 (⟨q * 4096 + r.val, by have h : t.val < 7824 := lt_of_lt_of_eq t.isLt N1; omega⟩ : Fin 2002944) j) := by
  obtain ⟨e0, e1, -⟩ := tile_of_point1 t
  unfold iblk1
  show V c main_v6 (((cfg1.win 0).blk t).view.emb (ix2 r j)) = _
  refine congrArg (V c main_v6) (funext fun a => Fin.ext ?_)
  match a with
  | ⟨0, _⟩ =>
    show win1_0.index t (0 : Fin 2) * 4096 + 1 * r.val = q * 4096 + r.val
    omega
  | ⟨1, _⟩ =>
    show win1_0.index t (1 : Fin 2) * 4 + 1 * j.val = j.val
    omega

/-- Points of one row tile read one index block. -/
theorem iblk1_0_sweep (t t' : Fin cfg1.N) (h : t.val / 16 = t'.val / 16) (r : Fin 4096) (j : Fin 4) :
    iblk1 V c 0 t (ix2 r j) = iblk1 V c 0 t' (ix2 r j) := by
  rw [iblk1_0_apply V c t _ h, iblk1_0_apply V c t' _ rfl]

theorem iblk1_1_apply (t : Fin cfg1.N) (n : Fin 4096) (col : Fin 16) :
    iblk1 V c 1 t (ix2 n col)
      = (V c main_v4 : S65536x16.Idx → Elt F .bf16) (ix2 (⟨(t.val % 16) * 4096 + n.val, by omega⟩ : Fin 65536) col) := by
  obtain ⟨-, -, e2, e3, -⟩ := tile_of_point1 t
  unfold iblk1
  show V c main_v4 (((cfg1.win 1).blk t).view.emb (ix2 n col)) = _
  refine congrArg (V c main_v4) (funext fun a => Fin.ext ?_)
  match a with
  | ⟨0, _⟩ =>
    show win1_1.index t (0 : Fin 2) * 4096 + 1 * n.val = (t.val % 16) * 4096 + n.val
    omega
  | ⟨1, _⟩ =>
    show win1_1.index t (1 : Fin 2) * 16 + 1 * col.val = col.val
    omega

/-- The output as one function of the rows: row i holds entry i % 4096 of what the last point of row tile i / 4096 stored. -/
def rowsOut1 : S2002944x1.Idx → Elt F .f32 := fun i =>
  (outsAt1 V c (((i 0).val / 4096) * 16 + 15) (by have h : (i 0).val < 2002944 := (i 0).isLt; rw [N1]; omega)).1
    (ix2 (⟨(i 0).val % 4096, Nat.mod_lt _ (by norm_num)⟩ : Fin 4096) (0 : Fin 1))

/-- The block a sweep's last point gives to the output is its block of that function. -/
theorem flushed1_eq (t : Fin cfg1.N) (hf : (cfg1.win 2).flush t = true) :
    (dat1 V c).flushed 2 t = ((cfg1.win 2).blk t).view.read (Elt F) (rowsOut1 V c) := by
  have h15 : t.val % 16 = 15 := (flush1_2 t).mp hf
  obtain ⟨-, -, -, -, e4, -⟩ := tile_of_point1 t
  show (cfg1.win 2).cut (grid1.coords t) ((dat1 V c).after 2 t) = _
  rw [after1_2]
  funext y
  have hy : (y 0).val < 4096 := (y 0).isLt
  have e : (((cfg1.win 2).blk t).view.emb y 0).val = t.val / 16 * 4096 + (y 0).val := by
    show win1_2.index t (0 : Fin 2) * 4096 + 1 * (y 0).val = _
    omega
  exact (block_at (fun n hn => (outsAt1 V c n hn).1) _ _ t.val t.isLt _ y (by omega)
    (show (((cfg1.win 2).blk t).view.emb y 0).val % 4096 = (y 0).val by omega)).symm

/-- After the region, row `row` of the output holds what the last point of its row tile's sweep stored: that point's block holds the row. -/
theorem final1_apply (row : Fin 2002944) :
    ((dat1 V c).arrAt 2 cfg1.N : S2002944x1.Idx → Elt F .f32) (ix2 row (0 : Fin 1))
      = (outsAt1 V c ((row.val / 4096) * 16 + 15) (by rw [N1]; omega)).1
          (ix2 (⟨row.val % 4096, Nat.mod_lt _ (by norm_num)⟩ : Fin 4096) (0 : Fin 1)) := by
  obtain ⟨t, ht⟩ : ∃ t : Fin cfg1.N, t.val = row.val / 4096 * 16 + 15 := ⟨⟨_, by rw [N1]; omega⟩, rfl⟩
  refine (dat1 V c).arrAt_apply_of_mem 2 (rowsOut1 V c) (flushed1_eq V c) cfg1.N t _ t.isLt ((flush1_2 t).mpr (by omega)) ?_
  obtain ⟨-, -, -, -, e4, e5⟩ := tile_of_point1 t
  show _ ∈ ((View.whole main_v10).slice (win1_2.rect t)).set
  rw [View.set_slice_whole, Rect.mem_set_unit]
  intro (a : Fin 2)
  match a with
  | ⟨0, _⟩ =>
    show win1_2.index t (0 : Fin 2) * 4096 ≤ row.val ∧ row.val < win1_2.index t (0 : Fin 2) * 4096 + 4096
    omega
  | ⟨1, _⟩ =>
    show win1_2.index t (1 : Fin 2) * 1 ≤ 0 ∧ 0 < win1_2.index t (1 : Fin 2) * 1 + 1
    omega

end Cert.KernelIdeal.Hand

end
-- ==== Proof.KI.R1Fold.lean ====
import proofs.«425186_j76596446757483_2_alg».proof.Proof.KI.R1Acc
import proofs.«425186_j76596446757483_2_alg».proof.Proof.KI.R1Final

noncomputable section

namespace Cert.KernelIdeal.Hand

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b)) (c : Dev nD)

theorem coords1_1 : ∀ t : Fin cfg1.N, ((grid1.coords t) 1).val = t.val % 16 :=
  (by decide +kernel : ∀ t : Fin grid1.N, ((grid1.coords t) 1).val = t.val % 16)

/-- At a sweep's last point the accumulator's entry (r, col) is the column sum over the whole table for row r's two index words. -/
theorem acc1_full (n : ℕ) (hn : n < cfg1.N) (h15 : n % 16 = 15) (r : Fin 4096) (col : Fin 16) :
    (outsAt1 (F := Ideal) V c n hn).2 (ix2 r col)
      = colSum (V c main_v4) (iblk1 V c 0 ⟨n, hn⟩ (ix2 r (0 : Fin 4))) (iblk1 V c 0 ⟨n, hn⟩ (ix2 r (1 : Fin 4))) col := by
  refine sweep_cols (V c main_v4) (fun n hn => (outsAt1 (F := Ideal) V c n hn).2 (ix2 r col))
    (fun n hn => iblk1 V c 0 ⟨n, hn⟩ (ix2 r (0 : Fin 4))) (fun n hn => iblk1 V c 0 ⟨n, hn⟩ (ix2 r (1 : Fin 4)))
    (fun n hn => tileBase1 (grid1.coords ⟨n, hn⟩)) (fun n hn => iblk1 V c 1 ⟨n, hn⟩) col
    (fun n hn => congrArg (fun k => Scalar.muli (BitVec.ofNat 32 k) 4096#32) (coords1_1 ⟨n, hn⟩))
    (fun n hn => iblk1_1_apply V c ⟨n, hn⟩) (fun n hn h => ?_) (fun n hn h => ?_) (fun n hn h => ?_) n hn h15
  · rw [show outsAt1 (F := Ideal) V c n hn = _ from outsAt1_first V c ⟨n, hn⟩ h]
    dsimp only
    exact accFirst1_apply _ _ _ _ _ _ _ _ _ _ _ _ _ _ r col
  · by_cases h1 : (n + 1) % 16 = 15
    · rw [show outsAt1 (F := Ideal) V c (n + 1) hn = _ from outsAt1_last V c ⟨n + 1, hn⟩ h h1]
      dsimp only
      exact accLast1_apply _ _ _ _ _ _ _ _ _ _ _ _ _ _ _ r col
    · rw [show outsAt1 (F := Ideal) V c (n + 1) hn = _ from outsAt1_mid V c ⟨n + 1, hn⟩ h h1]
      dsimp only
      exact accMid1_apply _ _ _ _ _ _ _ _ _ _ _ _ _ _ _ r col
  · have e := iblk1_0_sweep V c ⟨n, Nat.lt_of_succ_lt hn⟩ ⟨n + 1, hn⟩ (by show n / 16 = (n + 1) / 16; omega) r
    exact ⟨e 0, e 1⟩

/-- What the point writes out for row r, wa and wb being the row's two index words. -/
theorem out1_at (n : ℕ) (hn : n < cfg1.N) (h0 : ¬n % 16 = 0) (h1 : n % 16 = 15) (r : Fin 4096) (wa wb : BitVec 32)
    (ha : iblk1 V c 0 ⟨n, hn⟩ (ix2 r (0 : Fin 4)) = wa) (hb : iblk1 V c 0 ⟨n, hn⟩ (ix2 r (1 : Fin 4)) = wb) :
    (outsAt1 (F := Ideal) V c n hn).1 (ix2 r (0 : Fin 1)) = rootSq (V c main_v4) wa wb := by
  unfold rootSq
  subst ha hb
  simp only [← acc1_full V c n hn h1 r]
  rw [show outsAt1 (F := Ideal) V c n hn = _ from outsAt1_last V c ⟨n, hn⟩ h0 h1]
  dsimp only
  exact outLast1_apply _ _ _ _ _ _ _ _ _ _ _ _ _ _ _ r

end Cert.KernelIdeal.Hand

end
-- ==== Proof.KI.Close1.lean ====
import proofs.«425186_j76596446757483_2_alg».proof.Proof.KI.R1Fold
import proofs.«425186_j76596446757483_2_alg».proof.Proof.KI.HostIn
import proofs.«425186_j76596446757483_2_alg».proof.Proof.KI.Entry

noncomputable section

namespace Cert.KernelIdeal.Hand

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-- Below row 2000000 the padded index array is the index table, so point n's index block has at row r the words of table row `row`. -/
theorem pair_word1 (n : ℕ) (hn : n < cfg1.N) (r : Fin 4096) (j : Fin 4) (row : Fin 2000000)
    (hrow : (n / 16) * 4096 + r.val = row.val) :
    iblk1 (vr (X6 m)) c 0 ⟨n, hn⟩ (ix2 r j) = idx1 m c (ix2 row j) := by
  have hlt : (n / 16) * 4096 + r.val < 2000000 := by rw [hrow]; exact row.isLt
  refine (iblk1_0_apply (vr (X6 m)) c ⟨n, hn⟩ _ rfl r j).trans ?_
  rw [entry1_idx m c]
  refine (pad1_apply m c ⟨(n / 16) * 4096 + r.val, by omega⟩ j).trans ?_
  rw [dif_pos hlt]
  exact congrArg (fun k : Fin 2000000 => idx1 m c (ix2 k j)) (Fin.ext hrow)

/-- Row i of the output is the distance of the two rows of P that row i of the index table names, the table reading (P | P - P). -/
theorem o7_apply (hfin : ∀ j, Cert.LibOneHot.IsReal (pts m c j)) (h2 : ∀ j, (idx1 m c j).toNat < 65536)
    (i : Fin 2000000) :
    (o7 m c : S2002944x1.Idx → EReal) (ix2 (⟨i.val, by omega⟩ : Fin 2002944) (0 : Fin 1))
      = Cert.Spec.dist (pts m c) (Cert.Spec.row (idx1 m c (ix2 i (0 : Fin 4))))
          (Cert.Spec.row (idx1 m c (ix2 i (1 : Fin 4)))) := by
  have hi : i.val < 2000000 := i.isLt
  have hrow : (i.val / 4096 * 16 + 15) / 16 * 4096 + i.val % 4096 = i.val := by omega
  unfold o7
  refine (final1_apply (vr (X6 m)) c (⟨i.val, by omega⟩ : Fin 2002944)).trans ?_
  refine (out1_at (vr (X6 m)) c (i.val / 4096 * 16 + 15) _ (by omega) (by omega) ⟨i.val % 4096, Nat.mod_lt _ (by norm_num)⟩ _ _
    (pair_word1 m c _ _ _ 0 i hrow) (pair_word1 m c _ _ _ 1 i hrow)).trans ?_
  rw [entry1_tab m c]
  exact gathered (pts m c) hfin _ (table_apply m c) _ _ (h2 _) (h2 _)

end Cert.KernelIdeal.Hand

end
-- ==== Proof.KI.R2Acc.lean ====
import proofs.«425186_j76596446757483_2_alg».proof.Proof.KI.R2Dat
import proofs.«425186_j76596446757483_2_alg».proof.Proof.KI.Sweep

noncomputable section

open scoped BigOperators

namespace Cert.KernelIdeal.Hand

open Cert.KernelIdeal Idealize.ShloMosaic Idealize.ShloMosaic.ValueIdx
open Idealize.ShloMosaic.TcCoe Idealize.ShloMosaic.Tactic
open Cert.KernelIdeal.Gen

/-- the table tile's first row number at a grid point: 4096 times the point's second coordinate, as a word -/
def tileBase2 (i : grid2.Coords) : BitVec 32 := Scalar.muli (BitVec.ofNat 32 (i 1).val) 4096#32

section
variable (c : Dev nD) (i : grid2.Coords)
  (arg2 : Memref sig .tc .vmem S4096x4 .i32) (harg2 : arg2.IsWhole) (arg3 : Memref sig .tc .vmem S4096x16 .bf16) (harg3 : arg3.IsWhole)
  (arg4 : Memref sig .tc .vmem S4096x1 .f32) (harg4 : arg4.IsWhole) (arg5 : Memref sig .tc .vmem S4096x16 .f32) (harg5 : arg5.IsWhole)

section
variable {F : FTy → Type} [FloatOps F] (x0 : Vec F S4096x4 .i32) (x1 : Vec F S4096x16 .bf16) (xs : Vec F S4096x16 .f32)

theorem k2_pay5_apply (r : Fin 4096) : k2_pay5 x0 (ix2 r (0 : Fin 1)) = x0 (ix2 r (2 : Fin 4)) := by
  unfold k2_pay5 k2_pay4
  rw [shapeCast_self]
  exact slice2_axis1_apply _ x0 _ r (0 : Fin 1) (2 : Fin 4) rfl

theorem k2_pay6_apply (r : Fin 4096) : k2_pay6 x0 (ix2 r (0 : Fin 1)) = x0 (ix2 r (3 : Fin 4)) := by
  unfold k2_pay6 k2_pay4
  rw [shapeCast_self]
  exact slice2_axis1_apply _ x0 _ r (0 : Fin 1) (3 : Fin 4) rfl

/-- Each load of the accumulator reads the payload stored before it; the sixteen payloads are the sixteen updates. -/
theorem accMid2_eq (hc0 : ¬first2 i) (hc1 : ¬last2 i) :
    accMid2 c i arg2 harg2 arg3 harg3 arg4 harg4 arg5 harg5 hc0 hc1 x0 x1 xs = sweep (tileBase2 i) (k2_pay5 x0) (k2_pay6 x0) x1 xs := by
  refine (View.read_writes_eq_canon _ _ _ (coverMid2 c i arg2 harg2 arg3 harg3 arg4 harg4 arg5 harg5 hc0 hc1 x0 x1 xs)).trans ?_
  unfold run2_mid
  sl_unfold_words
  simp only [↓ View.canon_cons_unit_zero (S := S4096x16) hz, ↓ View.readCov_cons_toLoadRect,
    View.readAt_eq_ld, harg2.read_unread, harg3.read_unread, harg5.read_unread,
    View.ld_unit_zero (S := S4096x4) hz, View.ld_unit_zero (S := S4096x16) hz]
  rfl

theorem accLast2_eq (hc0 : ¬first2 i) (hc1 : last2 i) :
    accLast2 c i arg2 harg2 arg3 harg3 arg4 harg4 arg5 harg5 hc0 hc1 x0 x1 xs = sweep (tileBase2 i) (k2_pay5 x0) (k2_pay6 x0) x1 xs := by
  refine (View.read_writes_eq_canon _ _ _ (coverAccLast2 c i arg2 harg2 arg3 harg3 arg4 harg4 arg5 harg5 hc0 hc1 x0 x1 xs)).trans ?_
  unfold run2_last
  sl_unfold_words
  simp only [↓ View.canon_cons_unit_zero (S := S4096x16) hz, ↓ View.readCov_cons_toLoadRect,
    View.readAt_eq_ld, harg2.read_unread, harg3.read_unread, harg5.read_unread,
    View.ld_unit_zero (S := S4096x4) hz, View.ld_unit_zero (S := S4096x16) hz]
  rfl

theorem accFirst2_eq (hc0 : first2 i) (hc1 : ¬last2 i) :
    accFirst2 c i arg2 harg2 arg3 harg3 arg4 harg4 arg5 harg5 hc0 hc1 x0 x1 = sweep (tileBase2 i) (k2_pay5 x0) (k2_pay6 x0) x1 k2_pay3 := by
  refine (View.read_writes_eq_canon _ _ _ (coverFirst2 c i arg2 harg2 arg3 harg3 arg4 harg4 arg5 harg5 hc0 hc1 x0 x1)).trans ?_
  unfold run2_first
  sl_unfold_words
  simp only [↓ View.canon_cons_unit_zero (S := S4096x16) hz, ↓ View.readCov_cons_toLoadRect,
    View.readAt_eq_ld, harg2.read_unread, harg3.read_unread,
    View.ld_unit_zero (S := S4096x4) hz]
  rfl

theorem outLast2_eq (hc0 : ¬first2 i) (hc1 : last2 i) :
    outLast2 c i arg2 harg2 arg3 harg3 arg4 harg4 arg5 harg5 hc0 hc1 x0 x1 xs = k2_pay2 (sweep (tileBase2 i) (k2_pay5 x0) (k2_pay6 x0) x1 xs) := by
  refine (View.read_writes_eq_canon _ _ _ (coverOutLast2 c i arg2 harg2 arg3 harg3 arg4 harg4 arg5 harg5 hc0 hc1 x0 x1 xs)).trans ?_
  unfold run2_last
  sl_unfold_words
  simp only [↓ View.canon_unit_zero (S := S4096x1) hz, ↓ View.readCov_cons_toLoadRect,
    View.readAt_eq_ld, harg2.read_unread, harg3.read_unread, harg5.read_unread,
    View.ld_unit_zero (S := S4096x4) hz, View.ld_unit_zero (S := S4096x16) hz]
  rfl

end

theorem accMid2_apply (hc0 : ¬first2 i) (hc1 : ¬last2 i) (x0 : Vec Ideal S4096x4 .i32) (x1 : Vec Ideal S4096x16 .bf16) (xs : Vec Ideal S4096x16 .f32)
    (r : Fin 4096) (col : Fin 16) :
    accMid2 (F := Ideal) c i arg2 harg2 arg3 harg3 arg4 harg4 arg5 harg5 hc0 hc1 x0 x1 xs (ix2 r col)
      = xs (ix2 r col) + ∑ n : Fin 4096, (hit (tileBase2 i + BitVec.ofNat 32 n.val) (x0 (ix2 r (2 : Fin 4)))
          - hit (tileBase2 i + BitVec.ofNat 32 n.val) (x0 (ix2 r (3 : Fin 4)))) * x1 (ix2 n col) := by
  rw [accMid2_eq]
  exact sweep_apply _ x1 xs r col (k2_pay5_apply x0 r) (k2_pay6_apply x0 r)

theorem accLast2_apply (hc0 : ¬first2 i) (hc1 : last2 i) (x0 : Vec Ideal S4096x4 .i32) (x1 : Vec Ideal S4096x16 .bf16) (xs : Vec Ideal S4096x16 .f32)
    (r : Fin 4096) (col : Fin 16) :
    accLast2 (F := Ideal) c i arg2 harg2 arg3 harg3 arg4 harg4 arg5 harg5 hc0 hc1 x0 x1 xs (ix2 r col)
      = xs (ix2 r col) + ∑ n : Fin 4096, (hit (tileBase2 i + BitVec.ofNat 32 n.val) (x0 (ix2 r (2 : Fin 4)))
          - hit (tileBase2 i + BitVec.ofNat 32 n.val) (x0 (ix2 r (3 : Fin 4)))) * x1 (ix2 n col) := by
  rw [accLast2_eq]
  exact sweep_apply _ x1 xs r col (k2_pay5_apply x0 r) (k2_pay6_apply x0 r)

theorem accFirst2_apply (hc0 : first2 i) (hc1 : ¬last2 i) (x0 : Vec Ideal S4096x4 .i32) (x1 : Vec Ideal S4096x16 .bf16) (r : Fin 4096) (col : Fin 16) :
    accFirst2 (F := Ideal) c i arg2 harg2 arg3 harg3 arg4 harg4 arg5 harg5 hc0 hc1 x0 x1 (ix2 r col)
      = ∑ n : Fin 4096, (hit (tileBase2 i + BitVec.ofNat 32 n.val) (x0 (ix2 r (2 : Fin 4)))
          - hit (tileBase2 i + BitVec.ofNat 32 n.val) (x0 (ix2 r (3 : Fin 4)))) * x1 (ix2 n col) := by
  rw [accFirst2_eq]
  exact sweep_zero_apply _ x1 r col (k2_pay5_apply x0 r) (k2_pay6_apply x0 r)

theorem outLast2_apply (hc0 : ¬first2 i) (hc1 : last2 i) (x0 : Vec Ideal S4096x4 .i32) (x1 : Vec Ideal S4096x16 .bf16) (xs : Vec Ideal S4096x16 .f32) (r : Fin 4096) :
    outLast2 (F := Ideal) c i arg2 harg2 arg3 harg3 arg4 harg4 arg5 harg5 hc0 hc1 x0 x1 xs (ix2 r (0 : Fin 1))
      = Ideal.sqrt (∑ d : Fin 8,
          (accLast2 (F := Ideal) c i arg2 harg2 arg3 harg3 arg4 harg4 arg5 harg5 hc0 hc1 x0 x1 xs (ix2 r (⟨d.val, by omega⟩ : Fin 16))
            + accLast2 (F := Ideal) c i arg2 harg2 arg3 harg3 arg4 harg4 arg5 harg5 hc0 hc1 x0 x1 xs (ix2 r (⟨d.val + 8, by omega⟩ : Fin 16)))
          * (accLast2 (F := Ideal) c i arg2 harg2 arg3 harg3 arg4 harg4 arg5 harg5 hc0 hc1 x0 x1 xs (ix2 r (⟨d.val, by omega⟩ : Fin 16))
            + accLast2 (F := Ideal) c i arg2 harg2 arg3 harg3 arg4 harg4 arg5 harg5 hc0 hc1 x0 x1 xs (ix2 r (⟨d.val + 8, by omega⟩ : Fin 16)))) := by
  rw [outLast2_eq, accLast2_eq]
  exact norm_apply _ r

end

end Cert.KernelIdeal.Hand
-- ==== Proof.KI.R2Final.lean ====
import proofs.«425186_j76596446757483_2_alg».proof.Proof.KI.R2Dat
import proofs.«425186_j76596446757483_2_alg».proof.Proof.KI.FoldLaw

noncomputable section

namespace Cert.KernelIdeal.Hand

open Idealize.ShloMosaic Idealize.ShloMosaic.TcCoe Idealize.ShloMosaic.ValueIdx Cert.KernelIdeal Cert.KernelIdeal.Gen

variable {F : FTy → Type} [FloatOps F]

variable (V : (c : Dev nD) → (b : Ref sig .tc) → Buf (Elt F) ((c : Thread nD τ).loc b)) (c : Dev nD)

/-- Point t is (row tile t / 16, table tile t % 16): the index rows' and the output's windows follow the row tile, the table's the table tile. -/
theorem tile_of_point2 : ∀ t : Fin cfg2.N,
    win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = 0 :=
  (by decide +kernel : ∀ t : Fin grid2.N, _)

theorem iblk2_0_apply (t : Fin cfg2.N) (q : ℕ) (hq : t.val / 16 = q) (r : Fin 4096) (j : Fin 4) :
    iblk2 V c 0 t (ix2 r j)
      = (V c main_v6 : S2002944x4.Idx → Elt F .i32)
          (ix2 (⟨q * 4096 + r.val, by have h : t.val < 7824 := lt_of_lt_of_eq t.isLt N2; omega⟩ : Fin 2002944) j) := by
  obtain ⟨e0, e1, -⟩ := tile_of_point2 t
  unfold iblk2
  show V c main_v6 (((cfg2.win 0).blk t).view.emb (ix2 r j)) = _
  refine congrArg (V c main_v6) (funext fun a => Fin.ext ?_)
  match a with
  | ⟨0, _⟩ =>
    show win2_0.index t (0 : Fin 2) * 4096 + 1 * r.val = q * 4096 + r.val
    omega
  | ⟨1, _⟩ =>
    show win2_0.index t (1 : Fin 2) * 4 + 1 * j.val = j.val
    omega

/-- Points of one row tile read one index block. -/
theorem iblk2_0_sweep (t t' : Fin cfg2.N) (h : t.val / 16 = t'.val / 16) (r : Fin 4096) (j : Fin 4) :
    iblk2 V c 0 t (ix2 r j) = iblk2 V c 0 t' (ix2 r j) := by
  rw [iblk2_0_apply V c t _ h, iblk2_0_apply V c t' _ rfl]

theorem iblk2_1_apply (t : Fin cfg2.N) (n : Fin 4096) (col : Fin 16) :
    iblk2 V c 1 t (ix2 n col)
      = (V c main_v4 : S65536x16.Idx → Elt F .bf16) (ix2 (⟨(t.val % 16) * 4096 + n.val, by omega⟩ : Fin 65536) col) := by
  obtain ⟨-, -, e2, e3, -⟩ := tile_of_point2 t
  unfold iblk2
  show V c main_v4 (((cfg2.win 1).blk t).view.emb (ix2 n col)) = _
  refine congrArg (V c main_v4) (funext fun a => Fin.ext ?_)
  match a with
  | ⟨0, _⟩ =>
    show win2_1.index t (0 : Fin 2) * 4096 + 1 * n.val = (t.val % 16) * 4096 + n.val
    omega
  | ⟨1, _⟩ =>
    show win2_1.index t (1 : Fin 2) * 16 + 1 * col.val = col.val
    omega

/-- The output as one function of the rows: row i holds entry i % 4096 of what the last point of row tile i / 4096 stored. -/
def rowsOut2 : S2002944x1.Idx → Elt F .f32 := fun i =>
  (outsAt2 V c (((i 0).val / 4096) * 16 + 15) (by have h : (i 0).val < 2002944 := (i 0).isLt; rw [N2]; omega)).1
    (ix2 (⟨(i 0).val % 4096, Nat.mod_lt _ (by norm_num)⟩ : Fin 4096) (0 : Fin 1))

/-- The block a sweep's last point gives to the output is its block of that function. -/
theorem flushed2_eq (t : Fin cfg2.N) (hf : (cfg2.win 2).flush t = true) :
    (dat2 V c).flushed 2 t = ((cfg2.win 2).blk t).view.read (Elt F) (rowsOut2 V c) := by
  have h15 : t.val % 16 = 15 := (flush2_2 t).mp hf
  obtain ⟨-, -, -, -, e4, -⟩ := tile_of_point2 t
  show (cfg2.win 2).cut (grid2.coords t) ((dat2 V c).after 2 t) = _
  rw [after2_2]
  funext y
  have hy : (y 0).val < 4096 := (y 0).isLt
  have e : (((cfg2.win 2).blk t).view.emb y 0).val = t.val / 16 * 4096 + (y 0).val := by
    show win2_2.index t (0 : Fin 2) * 4096 + 1 * (y 0).val = _
    omega
  exact (block_at (fun n hn => (outsAt2 V c n hn).1) _ _ t.val t.isLt _ y (by omega)
    (show (((cfg2.win 2).blk t).view.emb y 0).val % 4096 = (y 0).val by omega)).symm

/-- After the region, row `row` of the output holds what the last point of its row tile's sweep stored: that point's block holds the row. -/
theorem final2_apply (row : Fin 2002944) :
    ((dat2 V c).arrAt 2 cfg2.N : S2002944x1.Idx → Elt F .f32) (ix2 row (0 : Fin 1))
      = (outsAt2 V c ((row.val / 4096) * 16 + 15) (by rw [N2]; omega)).1
          (ix2 (⟨row.val % 4096, Nat.mod_lt _ (by norm_num)⟩ : Fin 4096) (0 : Fin 1)) := by
  obtain ⟨t, ht⟩ : ∃ t : Fin cfg2.N, t.val = row.val / 4096 * 16 + 15 := ⟨⟨_, by rw [N2]; omega⟩, rfl⟩
  refine (dat2 V c).arrAt_apply_of_mem 2 (rowsOut2 V c) (flushed2_eq V c) cfg2.N t _ t.isLt ((flush2_2 t).mpr (by omega)) ?_
  obtain ⟨-, -, -, -, e4, e5⟩ := tile_of_point2 t
  show _ ∈ ((View.whole main_v13).slice (win2_2.rect t)).set
  rw [View.set_slice_whole, Rect.mem_set_unit]
  intro (a : Fin 2)
  match a with
  | ⟨0, _⟩ =>
    show win2_2.index t (0 : Fin 2) * 4096 ≤ row.val ∧ row.val < win2_2.index t (0 : Fin 2) * 4096 + 4096
    omega
  | ⟨1, _⟩ =>
    show win2_2.index t (1 : Fin 2) * 1 ≤ 0 ∧ 0 < win2_2.index t (1 : Fin 2) * 1 + 1
    omega

end Cert.KernelIdeal.Hand

end
-- ==== Proof.KI.R2Fold.lean ====
import proofs.«425186_j76596446757483_2_alg».proof.Proof.KI.R2Acc
import proofs.«425186_j76596446757483_2_alg».proof.Proof.KI.R2Final

noncomputable section

namespace Cert.KernelIdeal.Hand

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b)) (c : Dev nD)

theorem coords2_1 : ∀ t : Fin cfg2.N, ((grid2.coords t) 1).val = t.val % 16 :=
  (by decide +kernel : ∀ t : Fin grid2.N, ((grid2.coords t) 1).val = t.val % 16)

/-- At a sweep's last point the accumulator's entry (r, col) is the column sum over the whole table for row r's two index words. -/
theorem acc2_full (n : ℕ) (hn : n < cfg2.N) (h15 : n % 16 = 15) (r : Fin 4096) (col : Fin 16) :
    (outsAt2 (F := Ideal) V c n hn).2 (ix2 r col)
      = colSum (V c main_v4) (iblk2 V c 0 ⟨n, hn⟩ (ix2 r (2 : Fin 4))) (iblk2 V c 0 ⟨n, hn⟩ (ix2 r (3 : Fin 4))) col := by
  refine sweep_cols (V c main_v4) (fun n hn => (outsAt2 (F := Ideal) V c n hn).2 (ix2 r col))
    (fun n hn => iblk2 V c 0 ⟨n, hn⟩ (ix2 r (2 : Fin 4))) (fun n hn => iblk2 V c 0 ⟨n, hn⟩ (ix2 r (3 : Fin 4)))
    (fun n hn => tileBase2 (grid2.coords ⟨n, hn⟩)) (fun n hn => iblk2 V c 1 ⟨n, hn⟩) col
    (fun n hn => congrArg (fun k => Scalar.muli (BitVec.ofNat 32 k) 4096#32) (coords2_1 ⟨n, hn⟩))
    (fun n hn => iblk2_1_apply V c ⟨n, hn⟩) (fun n hn h => ?_) (fun n hn h => ?_) (fun n hn h => ?_) n hn h15
  · rw [show outsAt2 (F := Ideal) V c n hn = _ from outsAt2_first V c ⟨n, hn⟩ h]
    dsimp only
    exact accFirst2_apply _ _ _ _ _ _ _ _ _ _ _ _ _ _ r col
  · by_cases h1 : (n + 1) % 16 = 15
    · rw [show outsAt2 (F := Ideal) V c (n + 1) hn = _ from outsAt2_last V c ⟨n + 1, hn⟩ h h1]
      dsimp only
      exact accLast2_apply _ _ _ _ _ _ _ _ _ _ _ _ _ _ _ r col
    · rw [show outsAt2 (F := Ideal) V c (n + 1) hn = _ from outsAt2_mid V c ⟨n + 1, hn⟩ h h1]
      dsimp only
      exact accMid2_apply _ _ _ _ _ _ _ _ _ _ _ _ _ _ _ r col
  · have e := iblk2_0_sweep V c ⟨n, Nat.lt_of_succ_lt hn⟩ ⟨n + 1, hn⟩ (by show n / 16 = (n + 1) / 16; omega) r
    exact ⟨e 2, e 3⟩

/-- What the point writes out for row r, wa and wb being the row's two index words. -/
theorem out2_at (n : ℕ) (hn : n < cfg2.N) (h0 : ¬n % 16 = 0) (h1 : n % 16 = 15) (r : Fin 4096) (wa wb : BitVec 32)
    (ha : iblk2 V c 0 ⟨n, hn⟩ (ix2 r (2 : Fin 4)) = wa) (hb : iblk2 V c 0 ⟨n, hn⟩ (ix2 r (3 : Fin 4)) = wb) :
    (outsAt2 (F := Ideal) V c n hn).1 (ix2 r (0 : Fin 1)) = rootSq (V c main_v4) wa wb := by
  unfold rootSq
  subst ha hb
  simp only [← acc2_full V c n hn h1 r]
  rw [show outsAt2 (F := Ideal) V c n hn = _ from outsAt2_last V c ⟨n, hn⟩ h0 h1]
  dsimp only
  exact outLast2_apply _ _ _ _ _ _ _ _ _ _ _ _ _ _ _ r

end Cert.KernelIdeal.Hand

end
-- ==== Proof.KI.Close2.lean ====
import proofs.«425186_j76596446757483_2_alg».proof.Proof.KI.R2Fold
import proofs.«425186_j76596446757483_2_alg».proof.Proof.KI.HostIn
import proofs.«425186_j76596446757483_2_alg».proof.Proof.KI.Entry

noncomputable section

namespace Cert.KernelIdeal.Hand

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-- Below row 2000000 the padded index array is the index table, so point n's index block has at row r the words of table row `row`. -/
theorem pair_word2 (n : ℕ) (hn : n < cfg2.N) (r : Fin 4096) (j : Fin 4) (row : Fin 2000000)
    (hrow : (n / 16) * 4096 + r.val = row.val) :
    iblk2 (vr (X8 m)) c 0 ⟨n, hn⟩ (ix2 r j) = idx1 m c (ix2 row j) := by
  have hlt : (n / 16) * 4096 + r.val < 2000000 := by rw [hrow]; exact row.isLt
  refine (iblk2_0_apply (vr (X8 m)) c ⟨n, hn⟩ _ rfl r j).trans ?_
  rw [entry2_idx m c]
  refine (pad1_apply m c ⟨(n / 16) * 4096 + r.val, by omega⟩ j).trans ?_
  rw [dif_pos hlt]
  exact congrArg (fun k : Fin 2000000 => idx1 m c (ix2 k j)) (Fin.ext hrow)

/-- Row i of the output is the distance of the two rows of P that row i of the index table names, the table reading (P | P - P). -/
theorem o9_apply (hfin : ∀ j, Cert.LibOneHot.IsReal (pts m c j)) (h2 : ∀ j, (idx1 m c j).toNat < 65536)
    (i : Fin 2000000) :
    (o9 m c : S2002944x1.Idx → EReal) (ix2 (⟨i.val, by omega⟩ : Fin 2002944) (0 : Fin 1))
      = Cert.Spec.dist (pts m c) (Cert.Spec.row (idx1 m c (ix2 i (2 : Fin 4))))
          (Cert.Spec.row (idx1 m c (ix2 i (3 : Fin 4)))) := by
  have hi : i.val < 2000000 := i.isLt
  have hrow : (i.val / 4096 * 16 + 15) / 16 * 4096 + i.val % 4096 = i.val := by omega
  unfold o9
  refine (final2_apply (vr (X8 m)) c (⟨i.val, by omega⟩ : Fin 2002944)).trans ?_
  refine (out2_at (vr (X8 m)) c (i.val / 4096 * 16 + 15) _ (by omega) (by omega) ⟨i.val % 4096, Nat.mod_lt _ (by norm_num)⟩ _ _
    (pair_word2 m c _ _ _ 2 i hrow) (pair_word2 m c _ _ _ 3 i hrow)).trans ?_
  rw [entry2_tab m c]
  exact gathered (pts m c) hfin _ (table_apply m c) _ _ (h2 _) (h2 _)

end Cert.KernelIdeal.Hand

end
-- ==== Proof.KI.HostOut.lean ====
import proofs.«425186_j76596446757483_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal

noncomputable section

namespace Cert.KernelIdeal.Hand

open Cert.KernelIdeal Cert.KernelIdeal.Gen Idealize.ShloMosaic Idealize.ShloMosaic.ValueIdx Idealize.ShloMosaic.TcCoe
open Idealize.ShloMosaic.StableHlo (after_cons after_nil)

variable (m : (ℓ : Loc nD τ sig) → Buf (Elt Ideal) ℓ) (outs : Outs (F := Ideal))

theorem col_read {N n : Nat} (hn : n ≤ N) (x : (⟨2, ![N, 1]⟩ : Shape).Idx → EReal)
    (hsc : (⟨2, ![N, 1]⟩ : Shape).ShapeCasts ⟨1, ![N]⟩) (hsl : (⟨1, ![N]⟩ : Shape).Slices ![0] ⟨1, ![n]⟩) (i : Fin n) :
    extractStridedSlice (⟨1, ![n]⟩ : Shape) ![0] (shapeCast (⟨1, ![N]⟩ : Shape) x hsc) hsl (ix1 i)
      = x (ix2 (⟨i.val, by omega⟩ : Fin N) (0 : Fin 1)) := by
  have hi : i.val < N := by omega
  refine (extractStridedSlice_apply (![0]) _ hsl (ix1 i) (ix1 (⟨i.val, hi⟩ : Fin N)) fun a => ?_).trans ?_
  · match a with
    | ⟨0, _⟩ => show i.val = 0 + i.val; omega
  · refine shapeCast_apply x hsc (ix1 (⟨i.val, hi⟩ : Fin N)) (ix2 (⟨i.val, hi⟩ : Fin N) (0 : Fin 1)) ?_
    rw [Shape.rowMajor_val_two, Shape.rowMajor_val_one]
    show i.val * 1 + 0 = i.val
    omega

theorem v9_eq (c : Dev nD) :
    (V10 m outs c main_v9 : S65535.Idx → EReal)
      = extractStridedSlice S65535 ![0]
          (shapeCast S65536 (outs 5 main_v7 c : FVec Ideal S65536x1 .f32) shapeCasts_S65536x1_S65536) slices_S65536_S65535_0 := by
  rw [V10_of m outs c main_v9 (by decide), V9_of m outs c main_v9 (by decide), V8_of m outs c main_v9 (by decide),
    V7_of m outs c main_v9 (by decide)]
  dsimp only [V6]
  simp only [hostOps1]
  after_results
  dsimp only [V5]
  rw [Function.update_self]
  rfl

theorem v12_eq (c : Dev nD) :
    (V9 m outs c main_v12 : S2000000.Idx → EReal)
      = extractStridedSlice S2000000 ![0]
          (shapeCast S2002944 (outs 7 main_v10 c : FVec Ideal S2002944x1 .f32) shapeCasts_S2002944x1_S2002944)
          slices_S2002944_S2000000_0 := by
  rw [V9_of m outs c main_v12 (by decide)]
  dsimp only [V8]
  simp only [hostOps2]
  after_results
  dsimp only [V7]
  rw [Function.update_self]
  rfl

theorem v18_eq (c : Dev nD) :
    (V10 m outs c main_v18 : S2000000x2.Idx → EReal)
      = (concatenate S2000000x2 1
          [⟨S2000000x1, broadcastInDim S2000000x1 ![0] bcast_S2000000_S2000000x1_0
              (extractStridedSlice S2000000 ![0]
                (shapeCast S2002944 (outs 7 main_v10 c : FVec Ideal S2002944x1 .f32) shapeCasts_S2002944x1_S2002944)
                slices_S2002944_S2000000_0)⟩,
            ⟨S2000000x1, broadcastInDim S2000000x1 ![0] bcast_S2000000_S2000000x1_0
              (extractStridedSlice S2000000 ![0]
                (shapeCast S2002944 (outs 9 main_v13 c : FVec Ideal S2002944x1 .f32) shapeCasts_S2002944x1_S2002944)
                slices_S2002944_S2000000_0)⟩]
          concatenates_S2000000x1_S2000000x1_S2000000x2_d1 : FVec Ideal S2000000x2 .f32) := by
  dsimp only [V10]
  simp only [hostOps3]
  after_results
  rw [v12_eq]
  dsimp only [V9]
  rw [Function.update_self]
  rfl

theorem v9_apply (c : Dev nD) (i : Fin 65535) :
    (V10 m outs c main_v9 : S65535.Idx → EReal) (ix1 i)
      = (outs 5 main_v7 c : S65536x1.Idx → EReal) (ix2 ⟨i.val, by omega⟩ (0 : Fin 1)) := by
  rw [v9_eq]
  exact col_read (by omega) _ shapeCasts_S65536x1_S65536 slices_S65536_S65535_0 i

theorem v18_apply (c : Dev nD) (i : Fin 2000000) (q : Fin 2) :
    (V10 m outs c main_v18 : S2000000x2.Idx → EReal) (ix2 i q)
      = if q.val = 0 then (outs 7 main_v10 c : S2002944x1.Idx → EReal) (ix2 ⟨i.val, by omega⟩ (0 : Fin 1))
        else (outs 9 main_v13 c : S2002944x1.Idx → EReal) (ix2 ⟨i.val, by omega⟩ (0 : Fin 1)) := by
  rw [v18_eq]
  have hb : ∀ v : FVec Ideal S2000000 .f32,
      broadcastInDim S2000000x1 ![0] bcast_S2000000_S2000000x1_0 v (ix2 i (0 : Fin 1)) = v (ix1 i) := fun v => by
    refine broadcastInDim_apply _ bcast_S2000000_S2000000x1_0 v (ix2 i (0 : Fin 1)) (ix1 i) fun a => ?_
    match a with
    | ⟨0, _⟩ =>
      show i.val = if (2000000 : ℕ) = 1 then 0 else i.val
      rw [if_neg (by decide)]
  by_cases hq : q.val = 0
  · rw [if_pos hq]
    refine (concatenate_pair_apply_left (t := S2000000x2) (s₁ := S2000000x1) (s₂ := S2000000x1) (1 : Fin 2) _ _
      concatenates_S2000000x1_S2000000x1_S2000000x2_d1 (ix2 i q : S2000000x2.Idx) rfl
      (ix2 i (0 : Fin 1) : S2000000x1.Idx) fun b => ?_).trans ?_
    · match b with
      | ⟨0, _⟩ => rfl
      | ⟨1, _⟩ => exact hq.symm
    · rw [hb]
      exact col_read (by omega) _ shapeCasts_S2002944x1_S2002944 slices_S2002944_S2000000_0 i
  · rw [if_neg hq]
    have hq1 : q.val = 1 := by omega
    refine (concatenate_pair_apply_right (t := S2000000x2) (s₁ := S2000000x1) (s₂ := S2000000x1) (1 : Fin 2) _ _
      concatenates_S2000000x1_S2000000x1_S2000000x2_d1 (ix2 i q : S2000000x2.Idx) rfl rfl
      (ix2 i (0 : Fin 1) : S2000000x1.Idx) (fun b hb' => ?_) ?_).trans ?_
    · match b with
      | ⟨0, _⟩ => rfl
      | ⟨1, _⟩ => exact absurd rfl hb'
    · show 0 + 1 = q.val
      omega
    · rw [hb]
      exact col_read (by omega) _ shapeCasts_S2002944x1_S2002944 slices_S2002944_S2000000_0 i

end Cert.KernelIdeal.Hand

end
-- ==== Proof.KI.Results.lean ====
import proofs.«425186_j76596446757483_2_alg».proof.Proof.KI.Close0
import proofs.«425186_j76596446757483_2_alg».proof.Proof.KI.Close1
import proofs.«425186_j76596446757483_2_alg».proof.Proof.KI.Close2
import proofs.«425186_j76596446757483_2_alg».proof.Proof.KI.HostOut

noncomputable section

namespace Cert.KernelIdeal.Hand

open Cert.KernelIdeal Cert.KernelIdeal.Gen Idealize.ShloMosaic Idealize.ShloMosaic.ValueIdx Idealize.ShloMosaic.TcCoe

variable (m : (ℓ : Loc nD τ sig) → Buf (Elt Ideal) ℓ)

theorem result0 (c : Dev nD) (hfin : ∀ j, Cert.LibOneHot.IsReal (pts m c j)) (h1 : ∀ j, (idx0 m c j).toNat < 65536) :
    (V10 m (outs m) c main_v9 : S65535.Idx → EReal) = Cert.Spec.deaths (pts m c) (idx0 m c) := by
  funext i
  obtain ⟨p, rfl⟩ : ∃ p : Fin 65535, i = ix1 p := ⟨⟨(i 0).val, (i 0).isLt⟩, eq_ix1 i⟩
  rw [v9_apply m (outs m) c p, outs5]
  exact o5_apply m c hfin h1 p

theorem result1 (c : Dev nD) (hfin : ∀ j, Cert.LibOneHot.IsReal (pts m c j)) (h2 : ∀ j, (idx1 m c j).toNat < 65536) :
    (V10 m (outs m) c main_v18 : S2000000x2.Idx → EReal) = Cert.Spec.dgm1 (pts m c) (idx1 m c) := by
  funext j
  obtain ⟨i, q, rfl⟩ : ∃ (i : Fin 2000000) (q : Fin 2), j = ix2 i q :=
    ⟨⟨(j 0).val, (j 0).isLt⟩, ⟨(j 1).val, (j 1).isLt⟩, eq_ix2 j⟩
  rw [v18_apply m (outs m) c i q]
  unfold Cert.Spec.dgm1
  by_cases hq : q.val = 0
  · rw [if_pos hq, if_pos (show ((ix2 i q) 1 : Fin 2).val = 0 from hq), outs7]
    exact o7_apply m c hfin h2 i
  · rw [if_neg hq, if_neg (show ¬((ix2 i q) 1 : Fin 2).val = 0 from hq), outs9]
    exact o9_apply m c hfin h2 i

end Cert.KernelIdeal.Hand

end
-- ==== Proof.LibTRef.lean ====
import Idealize.ShloMosaic.Lib.StableHlo

namespace Idealize.ShloMosaic.StableHlo.TRef

variable {sig : RefSig} {Val : EltTy → Type} {T : BufTy}

theorem ofBuf_toBuf (x : TRef sig T) (v : T.Contents Val) : x.ofBuf (x.toBuf v) = v := by
  obtain ⟨r, rfl, h1, h2⟩ := x
  rfl

end Idealize.ShloMosaic.StableHlo.TRef
-- ==== Proof.Ref.Run.lean ====
import proofs.«425186_j76596446757483_2_alg».proof.ReferenceIdeal
import proofs.«425186_j76596446757483_2_alg».proof.Proof.LibTRef
import Idealize.ShloMosaic.Lib.StableHlo.Run
import Idealize.ShloMosaic.PureOps.Ideal

set_option Elab.async false

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable [Cert.ReferenceIdeal.Facts]

section Ops
variable {F : FTy → Type} [FloatOps F]

/-- the entry function's operations in order, the two outlined norm functions unfolded at their calls -/
abbrev ops : List (HloOp τ sig (Elt F)) :=
  [ nullary main_c (fun i => lit0 (S2.rowMajor i)),
    nullary main_c_0 (fun i => lit1 (S2.rowMajor i)),
    unary main_arg1 main_v0 (extractStridedSlice S65535x1 ![0, 0] · slices_S65535x2_S65535x1_0_0),
    reshape main_v0 main_v1 rfl shapeCasts_S65535x1_S65535,
    nullary main_c_1 (constantI S_ 32 0#32),
    unary main_c_1 main_v2 (broadcastInDim S65535 ![] bcast_S_S65535),
    binary main_v1 main_v2 main_v3 (cmpi .slt),
    nullary main_c_2 (constantI S_ 32 65536#32),
    unary main_c_2 main_v4 (broadcastInDim S65535 ![] bcast_S_S65535),
    binary main_v1 main_v4 main_v5 addi,
    ternary main_v3 main_v5 main_v1 main_v6 select,
    unary main_v6 main_v7 (broadcastInDim S65535x1 ![0] bcast_S65535_S65535x1_0),
    binary main_arg0 main_v7 main_v8 (fun x i => Host.gather gather_S65536x8_S65535x1_S65535x8_1_0_n_n_0_1_18 x i),
    unary main_arg1 main_v9 (extractStridedSlice S65535x1 ![0, 1] · slices_S65535x2_S65535x1_0_1),
    reshape main_v9 main_v10 rfl shapeCasts_S65535x1_S65535,
    nullary main_c_3 (constantI S_ 32 0#32),
    unary main_c_3 main_v11 (broadcastInDim S65535 ![] bcast_S_S65535),
    binary main_v10 main_v11 main_v12 (cmpi .slt),
    nullary main_c_4 (constantI S_ 32 65536#32),
    unary main_c_4 main_v13 (broadcastInDim S65535 ![] bcast_S_S65535),
    binary main_v10 main_v13 main_v14 addi,
    ternary main_v12 main_v14 main_v10 main_v15 select,
    unary main_v15 main_v16 (broadcastInDim S65535x1 ![0] bcast_S65535_S65535x1_0),
    binary main_arg0 main_v16 main_v17 (fun x i => Host.gather gather_S65536x8_S65535x1_S65535x8_1_0_n_n_0_1_18 x i),
    binary main_v8 main_v17 main_v18 subf,
    TRef.binary (.of main_v18) (.of main_v18) main_call0.v0 mulf,
    TRef.nullary main_call0.cst (constant S_ .f32 0x00000000#32),
    TRef.binary main_call0.v0 main_call0.cst main_call0.v1 (fun x v => Host.reduceAdd x v reducesTo_S65535x8_S65535_d1 h_S_),
    TRef.unary main_call0.v1 main_call0.v2 Host.sqrt,
    nullary main_c_5 (constantI S_ 32 0#32),
    unary main_c_5 main_v20 (broadcastInDim S2 ![] bcast_S_S2),
    binary main_c main_v20 main_v21 (cmpi .slt),
    nullary main_c_6 (constantI S_ 32 4#32),
    unary main_c_6 main_v22 (broadcastInDim S2 ![] bcast_S_S2),
    binary main_c main_v22 main_v23 addi,
    ternary main_v21 main_v23 main_c main_v24 select,
    unary main_v24 main_v25 (broadcastInDim S2x1 ![0] bcast_S2_S2x1_0),
    binary main_arg2 main_v25 main_v26 (fun x i => Host.gather gather_S2000000x4_S2x1_S2000000x2_0_1_n_n_1_1_20000001 x i),
    nullary main_c_7 (constantI S_ 32 0#32),
    unary main_c_7 main_v27 (broadcastInDim S2000000x2 ![] bcast_S_S2000000x2),
    binary main_v26 main_v27 main_v28 (cmpi .slt),
    nullary main_c_8 (constantI S_ 32 65536#32),
    unary main_c_8 main_v29 (broadcastInDim S2000000x2 ![] bcast_S_S2000000x2),
    binary main_v26 main_v29 main_v30 addi,
    ternary main_v28 main_v30 main_v26 main_v31 select,
    unary main_v31 main_v32 (broadcastInDim S2000000x2x1 ![0, 1] bcast_S2000000x2_S2000000x2x1_0_1),
    binary main_arg0 main_v32 main_v33 (fun x i => Host.gather gather_S65536x8_S2000000x2x1_S2000000x2x8_2_0_n_n_0_2_18 x i),
    nullary main_c_9 (constantI S_ 32 0#32),
    unary main_c_9 main_v34 (broadcastInDim S2 ![] bcast_S_S2),
    binary main_c_0 main_v34 main_v35 (cmpi .slt),
    nullary main_c_10 (constantI S_ 32 4#32),
    unary main_c_10 main_v36 (broadcastInDim S2 ![] bcast_S_S2),
    binary main_c_0 main_v36 main_v37 addi,
    ternary main_v35 main_v37 main_c_0 main_v38 select,
    unary main_v38 main_v39 (broadcastInDim S2x1 ![0] bcast_S2_S2x1_0),
    binary main_arg2 main_v39 main_v40 (fun x i => Host.gather gather_S2000000x4_S2x1_S2000000x2_0_1_n_n_1_1_20000001 x i),
    nullary main_c_11 (constantI S_ 32 0#32),
    unary main_c_11 main_v41 (broadcastInDim S2000000x2 ![] bcast_S_S2000000x2),
    binary main_v40 main_v41 main_v42 (cmpi .slt),
    nullary main_c_12 (constantI S_ 32 65536#32),
    unary main_c_12 main_v43 (broadcastInDim S2000000x2 ![] bcast_S_S2000000x2),
    binary main_v40 main_v43 main_v44 addi,
    ternary main_v42 main_v44 main_v40 main_v45 select,
    unary main_v45 main_v46 (broadcastInDim S2000000x2x1 ![0, 1] bcast_S2000000x2_S2000000x2x1_0_1),
    binary main_arg0 main_v46 main_v47 (fun x i => Host.gather gather_S65536x8_S2000000x2x1_S2000000x2x8_2_0_n_n_0_2_18 x i),
    binary main_v33 main_v47 main_v48 subf,
    TRef.binary (.of main_v48) (.of main_v48) main_call1.v0 mulf,
    TRef.nullary main_call1.cst (constant S_ .f32 0x00000000#32),
    TRef.binary main_call1.v0 main_call1.cst main_call1.v1 (fun x v => Host.reduceAdd x v reducesTo_S2000000x2x8_S2000000x2_d2 h_S_),
    TRef.unary main_call1.v1 main_call1.v2 Host.sqrt ]

theorem main_eq (c : Dev nD) : main (F := F) c = seq ops := by
  simp only [main, main_part0, main_part1, fn_norm.body, fn_norm_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  repeat' apply And.intro
  all_goals first
    | with_reducible exact nullary_bufs_sub .. | with_reducible exact unary_bufs_sub .. | with_reducible exact binary_bufs_sub ..
    | with_reducible exact ternary_bufs_sub .. | with_reducible exact reshape_bufs_sub .. | exact binary_bufs_sub ..
    | exact unary_bufs_sub .. | exact nullary_bufs_sub ..

end Ops

/-- an index array wrapped: where a word is negative (signed), `n` is added -/
def wrap {s : Shape} (v : IVec s 32) (n : BitVec 32) (h : S_.BroadcastsInDim s ![]) : IVec s 32 :=
  select (cmpi .slt v (broadcastInDim s ![] h (constantI S_ 32 0#32))) (addi v (broadcastInDim s ![] h (constantI S_ 32 n))) v

/-- the outlined norm function: over the reduced axes the squares summed from the zero word, and the root -/
def normOf {s t : Shape} {axes : List (Fin s.rank)} (x : FVec Ideal s .f32) (h : s.ReducesTo axes t) : FVec Ideal t .f32 :=
  Host.sqrt (F := Ideal) (Host.reduceAdd (F := Ideal) (mulf x x) (constant (F := Ideal) S_ .f32 0x00000000#32) h h_S_)

/-- the rows of the point table named by column `o` of the first index array, wrapped at 65536 -/
def rows0 (P : FVec Ideal S65536x8 .f32) (A1 : IVec S65535x2 32) (o : ℕ) (hs : S65535x2.Slices ![0, o] S65535x1) :
    FVec Ideal S65535x8 .f32 :=
  Host.gather gather_S65536x8_S65535x1_S65535x8_1_0_n_n_0_1_18 P (broadcastInDim S65535x1 ![0] bcast_S65535_S65535x1_0
    (wrap (shapeCast S65535 (extractStridedSlice S65535x1 ![0, o] A1 hs) shapeCasts_S65535x1_S65535) 65536#32 bcast_S_S65535))

def res0 (P : FVec Ideal S65536x8 .f32) (A1 : IVec S65535x2 32) : FVec Ideal S65535 .f32 :=
  normOf (subf (rows0 P A1 0 slices_S65535x2_S65535x1_0_0) (rows0 P A1 1 slices_S65535x2_S65535x1_0_1))
    reducesTo_S65535x8_S65535_d1

/-- the rows of the point table named by the columns `T` (two column numbers, wrapped at 4) of the second index array -/
def rows1 (P : FVec Ideal S65536x8 .f32) (A2 : IVec S2000000x4 32) (T : IVec S2 32) : FVec Ideal S2000000x2x8 .f32 :=
  Host.gather gather_S65536x8_S2000000x2x1_S2000000x2x8_2_0_n_n_0_2_18 P
    (broadcastInDim S2000000x2x1 ![0, 1] bcast_S2000000x2_S2000000x2x1_0_1
      (wrap (Host.gather gather_S2000000x4_S2x1_S2000000x2_0_1_n_n_1_1_20000001 A2
        (broadcastInDim S2x1 ![0] bcast_S2_S2x1_0 (wrap T 4#32 bcast_S_S2))) 65536#32 bcast_S_S2000000x2))

def res1 (P : FVec Ideal S65536x8 .f32) (A2 : IVec S2000000x4 32) : FVec Ideal S2000000x2 .f32 :=
  normOf (subf (rows1 P A2 (fun i => lit0 (S2.rowMajor i))) (rows1 P A2 (fun i => lit1 (S2.rowMajor i))))
    reducesTo_S2000000x2x8_S2000000x2_d2

theorem toBuf_v49 (h1 h2 h3) (v : FVec Ideal S2000000x2 .f32) :
    (TRef.of main_v49 h1 h2 h3 : TRef sig ⟨S2000000x2, .f32⟩).toBuf (Val := Elt Ideal) v = v := rfl

theorem ofBuf_v48 (h1 h2 h3) (v : (⟨S2000000x2x8, .f32⟩ : BufTy).Contents (Elt Ideal)) :
    (TRef.of main_v48 h1 h2 h3 : TRef sig ⟨S2000000x2x8, .f32⟩).ofBuf (Val := Elt Ideal) v = v := rfl

theorem out0_eq (V : Valuation τ sig (Elt Ideal)) :
    after (ops (F := Ideal)) V (main_v19 : DevRef τ sig) = res0 (V (main_arg0 : DevRef τ sig)) (V (main_arg1 : DevRef τ sig)) := by
  after_results_simp
  simp only [TRef.toBuf, TRef.ofBuf, cast_eq]
  rfl

attribute [local irreducible] Host.gather Host.reduceAdd Host.sqrt in
theorem out1_eq (V : Valuation τ sig (Elt Ideal)) :
    after (ops (F := Ideal)) V (main_v49 : DevRef τ sig) = res1 (V (main_arg0 : DevRef τ sig)) (V (main_arg2 : DevRef τ sig)) := by
  after_results_simp
  generalize V (main_arg0 : DevRef τ sig) = P
  generalize V (main_arg2 : DevRef τ sig) = A2
  rw [TRef.ofBuf_toBuf, TRef.ofBuf_toBuf, TRef.ofBuf_toBuf]
  rw [toBuf_v49, ofBuf_v48]
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

/-- The run ends with the two result buffers at `res0`, `res1` of the launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = res0 (m ((c.tc : Thread nD τ).loc main_arg0)) (m ((c.tc : Thread nD τ).loc main_arg1))
      ∧ r.2.mem ((c.tc : Thread nD τ).loc main_v49) = res1 (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c => ⟨(h c main_v19).trans (out0_eq _),
      (h c main_v49).trans (out1_eq _),
      (h c main_arg0).trans (arg0_eq _),
      (h c main_arg1).trans (arg1_eq _),
      (h c main_arg2).trans (arg2_eq _)⟩)
    (run_seq scopedRefs_eq scopedSems_eq (defs (F := Ideal)) (main (F := Ideal)) (fun _ => ops) main_eq (fun _ => ops_sub) m ρ)

end Cert.ReferenceIdeal.Hand

end
-- ==== Proof.LibRowGather.lean ====
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.Ref.Read0.lean ====
import proofs.«425186_j76596446757483_2_alg».proof.Proof.Ref.Run
import proofs.«425186_j76596446757483_2_alg».proof.Proof.Spec
import proofs.«425186_j76596446757483_2_alg».proof.Proof.LibRowGather
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.ReferenceIdeal.Hand

open Cert.ReferenceIdeal Idealize.ShloMosaic Idealize.ShloMosaic.ValueIdx
open Cert.ReferenceIdeal.Facts₀

variable [Cert.ReferenceIdeal.Facts]

namespace Read0

theorem wrap_apply {s : Shape} (v : IVec s 32) (n : BitVec 32) (h : S_.BroadcastsInDim s ![]) (i : s.Idx) :
    wrap v n h i = Scalar.select (IntOp.cmpi .slt (v i) 0#32) (IntOp.addi (v i) n) (v i) := rfl

/-- The norm function at an index: the root of the sum of the squares along the one reduced axis. -/
theorem normOf_apply {s t : Shape} {a : Fin s.rank} (h' : s.ReducesTo [a] t) (h : s.Reduces [a] t) (x : FVec Ideal s .f32)
    (j : t.Idx) : normOf x h' j = Ideal.sqrt (∑ k : Fin (s.size a), x (h.lift j k) * x (h.lift j k)) := by
  show Ideal.sqrt (Ideal.hostReduceAdd h' (mulf (φ := .f32) x x)
    (constant (F := Ideal) S_ .f32 0x00000000#32 (Shape.Idx.first h_S_)) j) = _
  rw [Ideal.hostReduceAdd_single h' h, show constant (F := Ideal) S_ .f32 0x00000000#32 _ = 0 from Ideal.ofBits_zero_f32,
    zero_add]
  rfl

theorem startcol_apply {N : ℕ} (hN : N ≠ 1) (hb : (⟨1, ![N]⟩ : Shape).BroadcastsInDim ⟨2, ![N, 1]⟩ ![0])
    (w : IVec ⟨1, ![N]⟩ 32) (p : Fin N) :
    broadcastInDim (⟨2, ![N, 1]⟩ : Shape) ![0] hb w (ix2 p (0 : Fin 1)) = w (ix1 p) := by
  refine broadcastInDim_apply _ hb w (ix2 p (0 : Fin 1)) (ix1 p) fun a => ?_
  match a with
  | ⟨0, _⟩ =>
    show p.val = if N = 1 then 0 else p.val
    rw [if_neg hN]

theorem column_apply (A1 : IVec S65535x2 32) (o : ℕ) (hs : S65535x2.Slices ![0, o] S65535x1) (k : Fin 2) (hk : k.val = o)
    (p : Fin 65535) :
    shapeCast S65535 (extractStridedSlice S65535x1 ![0, o] A1 hs) shapeCasts_S65535x1_S65535 (ix1 p) = A1 (ix2 p k) := by
  refine (shapeCast_apply _ shapeCasts_S65535x1_S65535 (ix1 p) (ix2 p (0 : Fin 1)) ?_).trans
    (slice2_axis1_apply o A1 hs p (0 : Fin 1) k (by show k.val = o + 0; omega))
  rw [Shape.rowMajor_val_two, Shape.rowMajor_val_one]
  show p.val * 1 + 0 = p.val
  omega

/-- A wrapped, in-range index word gathers its own row of the point table. -/
theorem gathered_row (P : FVec Ideal S65536x8 .f32) (idx : IVec S65535x1 32) (a : BitVec 32) (p : Fin 65535) (k : Fin 8)
    (hidx : idx (ix2 p (0 : Fin 1)) = Scalar.select (IntOp.cmpi .slt a 0#32) (IntOp.addi a 65536#32) a)
    (ha : a.toNat < 65536) :
    Host.gather gather_S65536x8_S65535x1_S65535x8_1_0_n_n_0_1_18 P idx (ix2 p k) = P (ix2 (Cert.Spec.row a) k) := by
  refine (Cert.RowGather.gather_rows_apply (by norm_num) gather_S65536x8_S65535x1_S65535x8_1_0_n_n_0_1_18_wf P idx p k).trans ?_
  refine congrArg (fun r : Fin 65536 => P (ix2 r k)) (Fin.ext ?_)
  show min (BitVec.toInt (idx (ix2 p (0 : Fin 1)))).toNat (65536 - 1) = (Cert.Spec.row a).val
  rw [hidx, Cert.Spec.row_val_of_lt ha]
  exact Cert.RowGather.wrap_clamp a 65536#32 65536 ha (by norm_num)

theorem rows0_apply (P : FVec Ideal S65536x8 .f32) (A1 : IVec S65535x2 32) (h1 : ∀ j, (A1 j).toNat < 65536) (o : ℕ)
    (hs : S65535x2.Slices ![0, o] S65535x1) (k : Fin 2) (hk : k.val = o) (p : Fin 65535) (d : Fin 8) :
    rows0 P A1 o hs (ix2 p d) = P (ix2 (Cert.Spec.row (A1 (ix2 p k))) d) :=
  gathered_row P _ _ p d ((startcol_apply (by decide) bcast_S65535_S65535x1_0 _ p).trans
    ((wrap_apply _ _ _ _).trans (by rw [column_apply A1 o hs k hk p]))) (h1 _)

end Read0

open Read0

theorem res0_eq (P : FVec Ideal S65536x8 .f32) (A1 : IVec S65535x2 32) (h1 : ∀ j, (A1 j).toNat < 65536) :
    res0 P A1 = Cert.Spec.deaths P A1 := by
  funext i
  obtain ⟨p, rfl⟩ : ∃ p : Fin 65535, i = ix1 p := ⟨⟨(i 0).val, (i 0).isLt⟩, eq_ix1 i⟩
  have hR : S65535x8.Reduces [1] S65535 := by decide +kernel
  refine (normOf_apply _ hR _ _).trans ?_
  show _ = Cert.Spec.dist P (Cert.Spec.row (A1 (ix2 p (0 : Fin 2)))) (Cert.Spec.row (A1 (ix2 p (1 : Fin 2))))
  unfold Cert.Spec.dist
  refine congrArg Ideal.sqrt (Finset.sum_congr rfl fun (d : Fin 8) _ => ?_)
  have hl : hR.lift (ix1 p) d = ix2 p d := by
    funext a
    match a with
    | ⟨0, _⟩ => rfl
    | ⟨1, _⟩ => rfl
  rw [hl, subf_apply, rows0_apply P A1 h1 0 _ 0 rfl, rows0_apply P A1 h1 1 _ 1 rfl]

end Cert.ReferenceIdeal.Hand
-- ==== Proof.Ref.Read1.lean ====
import proofs.«425186_j76596446757483_2_alg».proof.Proof.Ref.Read0

noncomputable section

open scoped BigOperators

namespace Cert.ReferenceIdeal.Hand

open Cert.ReferenceIdeal Idealize.ShloMosaic Idealize.ShloMosaic.ValueIdx
open Cert.ReferenceIdeal.Facts₀

variable [Cert.ReferenceIdeal.Facts]

namespace Read1

theorem colGather_apply {w : ℕ} (A2 : IVec S2000000x4 32) (col : IVec S2x1 w) (i : Fin 2000000) (q : Fin 2) (c : Fin 4)
    (hc : min (col (ix2 q (0 : Fin 1))).toInt.toNat 3 = c.val) :
    Host.gather gather_S2000000x4_S2x1_S2000000x2_0_1_n_n_1_1_20000001 A2 col (ix2 i q) = A2 (ix2 i c) := by
  unfold Host.gather
  congr 1
  funext a
  refine Fin.ext ?_
  have h01 : (0 : Fin 2) ∉ ([1] : List (Fin 2)) := by decide
  match a with
  | ⟨0, _⟩ =>
    show gather_S2000000x4_S2x1_S2000000x2_0_1_n_n_1_1_20000001.start (ix2 i q) col 0 + gather_S2000000x4_S2x1_S2000000x2_0_1_n_n_1_1_20000001.batchCoord (ix2 i q) 0
      + gather_S2000000x4_S2x1_S2000000x2_0_1_n_n_1_1_20000001.offCoord (ix2 i q) 0 = i.val
    rw [GatherDims.batchCoord_eq_zero _ _ _ List.not_mem_nil]
    unfold GatherDims.start
    rw [dif_neg (show (0 : Fin 2) ∉ gather_S2000000x4_S2x1_S2000000x2_0_1_n_n_1_1_20000001.startIndexMap from h01)]
    unfold GatherDims.offCoord
    rw [dif_pos (show (0 : Fin 2) ∈ gather_S2000000x4_S2x1_S2000000x2_0_1_n_n_1_1_20000001.sKept from
      (GatherDims.mem_sKept _ _).mpr ⟨h01, List.not_mem_nil⟩)]
    simp only [Nat.zero_add, Nat.add_zero]
    rfl
  | ⟨1, _⟩ =>
    show gather_S2000000x4_S2x1_S2000000x2_0_1_n_n_1_1_20000001.start (ix2 i q) col 1 + gather_S2000000x4_S2x1_S2000000x2_0_1_n_n_1_1_20000001.batchCoord (ix2 i q) 1
      + gather_S2000000x4_S2x1_S2000000x2_0_1_n_n_1_1_20000001.offCoord (ix2 i q) 1 = c.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2000000x4_S2x1_S2000000x2_0_1_n_n_1_1_20000001.startIndexMap from List.mem_singleton.mpr rfl)]
    have hsi : gather_S2000000x4_S2x1_S2000000x2_0_1_n_n_1_1_20000001.siIdx (ix2 i q) ⟨List.idxOf (1 : Fin 2) gather_S2000000x4_S2x1_S2000000x2_0_1_n_n_1_1_20000001.startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    exact hc

theorem rowGather_apply {w : ℕ} (P : FVec Ideal S65536x8 .f32) (ind : IVec S2000000x2x1 w) (i : Fin 2000000) (q : Fin 2)
    (d : Fin 8) (k : Fin 65536) (hk : min (ind (ix3 i q (0 : Fin 1))).toInt.toNat 65535 = k.val) :
    Host.gather gather_S65536x8_S2000000x2x1_S2000000x2x8_2_0_n_n_0_2_18 P ind (ix3 i q d) = P (ix2 k d) := by
  unfold Host.gather
  congr 1
  funext a
  refine Fin.ext ?_
  have h10 : (1 : Fin 2) ∉ ([0] : List (Fin 2)) := by decide
  match a with
  | ⟨0, _⟩ =>
    show gather_S65536x8_S2000000x2x1_S2000000x2x8_2_0_n_n_0_2_18.start (ix3 i q d) ind 0 + gather_S65536x8_S2000000x2x1_S2000000x2x8_2_0_n_n_0_2_18.batchCoord (ix3 i q d) 0
      + gather_S65536x8_S2000000x2x1_S2000000x2x8_2_0_n_n_0_2_18.offCoord (ix3 i q d) 0 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S65536x8_S2000000x2x1_S2000000x2x8_2_0_n_n_0_2_18.startIndexMap from List.mem_singleton.mpr rfl)]
    have hsi : gather_S65536x8_S2000000x2x1_S2000000x2x8_2_0_n_n_0_2_18.siIdx (ix3 i q d) ⟨List.idxOf (0 : Fin 2) gather_S65536x8_S2000000x2x1_S2000000x2x8_2_0_n_n_0_2_18.startIndexMap,
        List.idxOf_lt_length_iff.2 (List.mem_singleton.mpr rfl)⟩ = ix3 i q (0 : Fin 1) := by
      funext b; refine Fin.ext ?_
      match b with
      | ⟨0, _⟩ => rfl
      | ⟨1, _⟩ => rfl
      | ⟨2, _⟩ => rfl
    rw [hsi]
    exact hk
  | ⟨1, _⟩ =>
    show gather_S65536x8_S2000000x2x1_S2000000x2x8_2_0_n_n_0_2_18.start (ix3 i q d) ind 1 + gather_S65536x8_S2000000x2x1_S2000000x2x8_2_0_n_n_0_2_18.batchCoord (ix3 i q d) 1
      + gather_S65536x8_S2000000x2x1_S2000000x2x8_2_0_n_n_0_2_18.offCoord (ix3 i q d) 1 = d.val
    rw [GatherDims.batchCoord_eq_zero _ _ _ List.not_mem_nil]
    unfold GatherDims.start
    rw [dif_neg (show (1 : Fin 2) ∉ gather_S65536x8_S2000000x2x1_S2000000x2x8_2_0_n_n_0_2_18.startIndexMap from h10)]
    unfold GatherDims.offCoord
    rw [dif_pos (show (1 : Fin 2) ∈ gather_S65536x8_S2000000x2x1_S2000000x2x8_2_0_n_n_0_2_18.sKept from
      (GatherDims.mem_sKept _ _).mpr ⟨h10, List.not_mem_nil⟩)]
    simp only [Nat.zero_add, Nat.add_zero]
    rfl

theorem colIdx_apply {α : Type} (v : S2.Idx → α) (q : Fin 2) :
    broadcastInDim S2x1 ![0] bcast_S2_S2x1_0 v (ix2 q (0 : Fin 1)) = v (ix1 q) :=
  broadcastInDim_apply _ _ v _ (ix1 q) (fun a => by
    match a with
    | ⟨0, _⟩ => rfl)

theorem rowIdx_apply {α : Type} (v : S2000000x2.Idx → α) (i : Fin 2000000) (q : Fin 2) :
    broadcastInDim S2000000x2x1 ![0, 1] bcast_S2000000x2_S2000000x2x1_0_1 v (ix3 i q (0 : Fin 1)) = v (ix2 i q) :=
  broadcastInDim_apply _ _ v _ (ix2 i q) (fun a => by
    match a with
    | ⟨0, _⟩ => rfl
    | ⟨1, _⟩ => rfl)

theorem rows1_apply (P : FVec Ideal S65536x8 .f32) (A2 : IVec S2000000x4 32) (h2 : ∀ j, (A2 j).toNat < 65536)
    (T : IVec S2 32) (i : Fin 2000000) (q : Fin 2) (d : Fin 8) (c : Fin 4)
    (hT : min (Scalar.select (IntOp.cmpi .slt (T (ix1 q)) 0#32) (IntOp.addi (T (ix1 q)) 4#32) (T (ix1 q))).toInt.toNat 3
      = c.val) :
    rows1 P A2 T (ix3 i q d) = P (ix2 (Cert.Spec.row (A2 (ix2 i c))) d) := by
  refine rowGather_apply P _ i q d (Cert.Spec.row (A2 (ix2 i c))) ?_
  rw [rowIdx_apply, Read0.wrap_apply, colGather_apply A2 _ i q c ?_]
  · rw [Cert.Spec.row_val_of_lt (h2 _)]
    exact Cert.RowGather.wrap_clamp (A2 (ix2 i c)) 65536#32 65536 (h2 _) (by norm_num)
  · rw [colIdx_apply, Read0.wrap_apply]
    exact hT

end Read1

open Read1

theorem res1_eq (P : FVec Ideal S65536x8 .f32) (A2 : IVec S2000000x4 32) (h2 : ∀ j, (A2 j).toNat < 65536) :
    res1 P A2 = Cert.Spec.dgm1 P A2 := by
  funext j
  obtain ⟨i, q, rfl⟩ : ∃ (i : Fin 2000000) (q : Fin 2), j = ix2 i q :=
    ⟨⟨(j 0).val, (j 0).isLt⟩, ⟨(j 1).val, (j 1).isLt⟩, eq_ix2 j⟩
  have hR : S2000000x2x8.Reduces [2] S2000000x2 := by decide +kernel
  have key : ∀ (q : Fin 2) (ca cb : Fin 4),
      min (Scalar.select (IntOp.cmpi .slt (lit0 (S2.rowMajor (ix1 q))) 0#32) (IntOp.addi (lit0 (S2.rowMajor (ix1 q))) 4#32)
        (lit0 (S2.rowMajor (ix1 q)))).toInt.toNat 3 = ca.val →
      min (Scalar.select (IntOp.cmpi .slt (lit1 (S2.rowMajor (ix1 q))) 0#32) (IntOp.addi (lit1 (S2.rowMajor (ix1 q))) 4#32)
        (lit1 (S2.rowMajor (ix1 q)))).toInt.toNat 3 = cb.val →
      res1 P A2 (ix2 i q) = Cert.Spec.dist P (Cert.Spec.row (A2 (ix2 i ca))) (Cert.Spec.row (A2 (ix2 i cb))) := by
    intro q ca cb ha hb
    refine (Read0.normOf_apply _ hR _ _).trans ?_
    unfold Cert.Spec.dist
    refine congrArg Ideal.sqrt (Finset.sum_congr rfl fun (d : Fin 8) _ => ?_)
    have hl : hR.lift (ix2 i q) d = ix3 i q d := by
      funext a
      match a with
      | ⟨0, _⟩ => rfl
      | ⟨1, _⟩ => rfl
      | ⟨2, _⟩ => rfl
    rw [hl, subf_apply, rows1_apply P A2 h2 (fun i => lit0 (S2.rowMajor i)) i q d ca ha,
      rows1_apply P A2 h2 (fun i => lit1 (S2.rowMajor i)) i q d cb hb]
  have hq : q = 0 ∨ q = 1 := by
    rcases q with ⟨v, hv⟩
    have : v = 0 ∨ v = 1 := by omega
    rcases this with rfl | rfl
    · exact Or.inl rfl
    · exact Or.inr rfl
  rcases hq with rfl | rfl
  · exact key 0 0 1 (by decide) (by decide)
  · exact key 1 2 3 (by decide) (by decide)

end Cert.ReferenceIdeal.Hand
-- ==== Proof.PreFacts.lean ====
import proofs.«425186_j76596446757483_2_alg».proof.Pre_finite_inputs
import Idealize.ShloMosaic.Lib.ReduceAll
import Idealize.ShloMosaic.Lib.StableHlo.Predicate
import Idealize.ShloMosaic.Lib.ValueIdx
import Idealize.ShloMosaic.PureOps.Ideal
import Idealize.ShloMosaic.PureOps.Ideal.Laws

noncomputable section

namespace Cert.PreFacts

open Idealize.ShloMosaic
open Cert.Pre_finite_inputs

instance : Subsingleton S_.Idx := ⟨fun a b => funext fun d => d.elim0⟩

theorem inf_bits : Ideal.ofBits .f32 0x7F800000#32 = (⊤ : EReal) := by simp [Ideal.ofBits, Ideal.ieee]

theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem word_range (w : BitVec 32) (h0 : IntOp.cmpi .sge w 0#32 = 1#1) (h1 : IntOp.cmpi .slt w 65536#32 = 1#1) :
    w.toNat < 65536 := by
  rw [IntOp.cmpi_sge] at h0
  rw [IntOp.cmpi_slt] at h1
  have e0 : (0#32 : BitVec 32).toInt = 0 := by decide
  have e1 : (65536#32 : BitVec 32).toInt = 65536 := by decide
  rw [e0] at h0
  rw [e1] at h1
  rw [BitVec.toInt_eq_toNat_cond] at h0 h1
  split at h0 <;> omega

variable [Cert.Pre_finite_inputs.Facts]

theorem decode (P : FVec Ideal Cert.Pre_finite_inputs.S65536x8 .f32) (A1 : IVec Cert.Pre_finite_inputs.S65535x2 32)
    (A2 : IVec Cert.Pre_finite_inputs.S2000000x4 32)
    (h : Cert.Pre_finite_inputs.fn (F := Ideal) P A1 A2 = fun _ => 1#1) :
    (∀ j, ∃ r : ℝ, P j = (r : EReal)) ∧ (∀ j, (A1 j).toNat < 65536) ∧ (∀ j, (A2 j).toNat < 65536) := by
  have h0 := congrFun h ValueIdx.ix0
  dsimp only [fn, fn_part1] at h0
  obtain ⟨h12, h3⟩ := IntOp.andi_eq_one.1 h0
  obtain ⟨h1, h2⟩ := IntOp.andi_eq_one.1 h12
  refine ⟨fun j => ?_, fun j => ?_, fun j => ?_⟩
  · have e : Ideal.cmp .olt (max (P j) (-(P j))) (Ideal.ofBits .f32 0x7F800000#32) = 1#1 :=
      Host.reduce_andi_all _ _ _ _ ValueIdx.ix0 h1 j
    rw [inf_bits] at e
    exact real_of_abs_lt_top (P j) e
  · have e : IntOp.andi (IntOp.cmpi .sge (A1 j) 0#32) (IntOp.cmpi .slt (A1 j) 65536#32) = 1#1 :=
      Host.reduce_andi_all _ _ _ _ ValueIdx.ix0 h2 j
    obtain ⟨ea, eb⟩ := IntOp.andi_eq_one.1 e
    exact word_range (A1 j) ea eb
  · have e : IntOp.andi (IntOp.cmpi .sge (A2 j) 0#32) (IntOp.cmpi .slt (A2 j) 65536#32) = 1#1 :=
      Host.reduce_andi_all _ _ _ _ ValueIdx.ix0 h3 j
    obtain ⟨ea, eb⟩ := IntOp.andi_eq_one.1 e
    exact word_range (A2 j) ea eb

end Cert.PreFacts

end
-- ==== Proof.lean ====
import proofs.«425186_j76596446757483_2_alg».proof.Defs
import proofs.«425186_j76596446757483_2_alg».proof.Proof.Gen.ReferenceIdeal
import proofs.«425186_j76596446757483_2_alg».proof.Proof.Gen.Pre_finite_inputs
import proofs.«425186_j76596446757483_2_alg».proof.Proof.KB.Main
import proofs.«425186_j76596446757483_2_alg».proof.Proof.KI.Main
import proofs.«425186_j76596446757483_2_alg».proof.Proof.KI.Results
import proofs.«425186_j76596446757483_2_alg».proof.Proof.Ref.Read1
import proofs.«425186_j76596446757483_2_alg».proof.Proof.PreFacts

noncomputable section

namespace Cert.Proof

open Idealize.ShloMosaic Idealize.SL.Sem

/-- each program's frame is its run with the results forgotten -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h => h) (Cert.Kernel.Hand.run_main (F := Bits) m ρ)

theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2.2) (Cert.KernelIdeal.Hand.run_main (F := Ideal) m ρ)

theorem frame_r : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.Hand.run m ρ)

/-- both programs end with, per edge, the distance of the two rows of the point table its vertex words name; the precondition makes the table's entries real and the words row numbers -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.deaths (Cert.KernelIdeal.Hand.pts m c) (Cert.KernelIdeal.Hand.idx0 m c),
    fun c => Cert.Spec.dgm1 (Cert.KernelIdeal.Hand.pts m c) (Cert.KernelIdeal.Hand.idx1 m c), ?_, ?_⟩
  · refine (θ_run (Cert.KernelIdeal.defs (F := Ideal)) _ _).mono (fun r h c => ?_) (Cert.KernelIdeal.Hand.run_main (F := Ideal) m ρ)
    obtain ⟨hfin, h1, h2⟩ := Cert.PreFacts.decode _ _ _ (hpre c)
    exact ⟨(h c).1.trans (Cert.KernelIdeal.Hand.result0 m c hfin h1), (h c).2.1.trans (Cert.KernelIdeal.Hand.result1 m c hfin h2), (h c).2.2⟩
  · refine (θ_run (Cert.ReferenceIdeal.defs (F := Ideal)) _ _).mono (fun r h c => ?_) (Cert.ReferenceIdeal.Hand.run m' ρ')
    obtain ⟨hfin, h1, h2⟩ := Cert.PreFacts.decode _ _ _ (hpre c)
    refine ⟨(h c).1.trans ?_, (h c).2.1.trans ?_, (h c).2.2⟩
    · rw [(hagree c).1, (hagree c).2.1]
      exact Cert.ReferenceIdeal.Hand.res0_eq _ _ h1
    · rw [(hagree c).1, (hagree c).2.2]
      exact Cert.ReferenceIdeal.Hand.res1_eq _ _ h2

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
